-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x500 : Shape := ⟨2, ![10000, 500]⟩
abbrev S10000x10000 : Shape := ⟨2, ![10000, 10000]⟩
abbrev S500x400 : Shape := ⟨2, ![500, 400]⟩
abbrev S1200x400 : Shape := ⟨2, ![1200, 400]⟩
abbrev S1200x1200 : Shape := ⟨2, ![1200, 1200]⟩
abbrev S1200 : Shape := ⟨1, ![1200]⟩
abbrev S_ : Shape := ⟨0, ![]⟩

class Facts : Prop where
  bcast_S_S10000x500 : S_.BroadcastsInDim S10000x500 (![] : Fin 0 → Fin S10000x500.rank)
  reducesTo_S10000x500_S_d0_1 : S10000x500.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S500x400 : S_.BroadcastsInDim S500x400 (![] : Fin 0 → Fin S500x400.rank)
  reducesTo_S500x400_S_d0_1 : S500x400.ReducesTo [0, 1] S_
  bcast_S_S1200x400 : S_.BroadcastsInDim S1200x400 (![] : Fin 0 → Fin S1200x400.rank)
  reducesTo_S1200x400_S_d0_1 : S1200x400.ReducesTo [0, 1] S_
  bcast_S_S1200x1200 : S_.BroadcastsInDim S1200x1200 (![] : Fin 0 → Fin S1200x1200.rank)
  reducesTo_S1200x1200_S_d0_1 : S1200x1200.ReducesTo [0, 1] S_
  bcast_S_S1200 : S_.BroadcastsInDim S1200 (![] : Fin 0 → Fin S1200.rank)
  reducesTo_S1200_S_d0 : S1200.ReducesTo [0] S_

variable [Facts]

def fn_part2 {F : FTy → Type} [FloatOps F] (main_arg7 : FVec F S1200x400 .f32) (main_arg8 : FVec F S1200x1200 .f32) (main_arg9 : FVec F S1200 .f32) (main_v33 : IVec S_ 1) : IVec S_ 1 :=
  let main_v34 : FVec F S1200x400 .f32 := Host.absf main_arg7
  let main_cst_12 : FVec F S_ .f32 := constant S_ .f32 0x7F800000#32
  let main_v35 : FVec F S1200x400 .f32 := broadcastInDim S1200x400 ![] bcast_S_S1200x400 main_cst_12
  let main_v36 : IVec S1200x400 1 := cmpf .olt main_v34 main_v35
  let main_c_13 : IVec S_ 1 := constantI S_ 1 1#1
  let main_v37 : IVec S_ 1 := (fun x v => Host.reduce IntOp.andi x v reducesTo_S1200x400_S_d0_1 h_S_) main_v36 main_c_13
  let main_v38 : IVec S_ 1 := andi main_v33 main_v37
  let main_v39 : FVec F S1200x1200 .f32 := Host.absf main_arg8
  let main_cst_14 : FVec F S_ .f32 := constant S_ .f32 0x7F800000#32
  let main_v40 : FVec F S1200x1200 .f32 := broadcastInDim S1200x1200 ![] bcast_S_S1200x1200 main_cst_14
  let main_v41 : IVec S1200x1200 1 := cmpf .olt main_v39 main_v40
  let main_c_15 : IVec S_ 1 := constantI S_ 1 1#1
  let main_v42 : IVec S_ 1 := (fun x v => Host.reduce IntOp.andi x v reducesTo_S1200x1200_S_d0_1 h_S_) main_v41 main_c_15
  let main_v43 : IVec S_ 1 := andi main_v38 main_v42
  let main_v44 : FVec F S1200 .f32 := Host.absf main_arg9
  let main_cst_16 : FVec F S_ .f32 := constant S_ .f32 0x7F800000#32
  let main_v45 : FVec F S1200 .f32 := broadcastInDim S1200 ![] bcast_S_S1200 main_cst_16
  let main_v46 : IVec S1200 1 := cmpf .olt main_v44 main_v45
  let main_c_17 : IVec S_ 1 := constantI S_ 1 1#1
  let main_v47 : IVec S_ 1 := (fun x v => Host.reduce IntOp.andi x v reducesTo_S1200_S_d0 h_S_) main_v46 main_c_17
  let main_v48 : IVec S_ 1 := andi main_v43 main_v47
  main_v48

def fn_part1 {F : FTy → Type} [FloatOps F] (main_arg4 : FVec F S500x400 .f32) (main_arg5 : FVec F S1200x400 .f32) (main_arg6 : FVec F S1200x400 .f32) (main_arg7 : FVec F S1200x400 .f32) (main_arg8 : FVec F S1200x1200 .f32) (main_arg9 : FVec F S1200 .f32) (main_v13 : IVec S_ 1) (main_v16 : IVec S500x400 1) : IVec S_ 1 :=
  let main_c_5 : IVec S_ 1 := constantI S_ 1 1#1
  let main_v17 : IVec S_ 1 := (fun x v => Host.reduce IntOp.andi x v reducesTo_S500x400_S_d0_1 h_S_) main_v16 main_c_5
  let main_v18 : IVec S_ 1 := andi main_v13 main_v17
  let main_v19 : FVec F S500x400 .f32 := Host.absf main_arg4
  let main_cst_6 : FVec F S_ .f32 := constant S_ .f32 0x7F800000#32
  let main_v20 : FVec F S500x400 .f32 := broadcastInDim S500x400 ![] bcast_S_S500x400 main_cst_6
  let main_v21 : IVec S500x400 1 := cmpf .olt main_v19 main_v20
  let main_c_7 : IVec S_ 1 := constantI S_ 1 1#1
  let main_v22 : IVec S_ 1 := (fun x v => Host.reduce IntOp.andi x v reducesTo_S500x400_S_d0_1 h_S_) main_v21 main_c_7
  let main_v23 : IVec S_ 1 := andi main_v18 main_v22
  let main_v24 : FVec F S1200x400 .f32 := Host.absf main_arg5
  let main_cst_8 : FVec F S_ .f32 := constant S_ .f32 0x7F800000#32
  let main_v25 : FVec F S1200x400 .f32 := broadcastInDim S1200x400 ![] bcast_S_S1200x400 main_cst_8
  let main_v26 : IVec S1200x400 1 := cmpf .olt main_v24 main_v25
  let main_c_9 : IVec S_ 1 := constantI S_ 1 1#1
  let main_v27 : IVec S_ 1 := (fun x v => Host.reduce IntOp.andi x v reducesTo_S1200x400_S_d0_1 h_S_) main_v26 main_c_9
  let main_v28 : IVec S_ 1 := andi main_v23 main_v27
  let main_v29 : FVec F S1200x400 .f32 := Host.absf main_arg6
  let main_cst_10 : FVec F S_ .f32 := constant S_ .f32 0x7F800000#32
  let main_v30 : FVec F S1200x400 .f32 := broadcastInDim S1200x400 ![] bcast_S_S1200x400 main_cst_10
  let main_v31 : IVec S1200x400 1 := cmpf .olt main_v29 main_v30
  let main_c_11 : IVec S_ 1 := constantI S_ 1 1#1
  let main_v32 : IVec S_ 1 := (fun x v => Host.reduce IntOp.andi x v reducesTo_S1200x400_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x500 .f32) (main_arg1 : FVec F S10000x10000 .f32) (main_arg2 : FVec F S500x400 .f32) (main_arg3 : FVec F S500x400 .f32) (main_arg4 : FVec F S500x400 .f32) (main_arg5 : FVec F S1200x400 .f32) (main_arg6 : FVec F S1200x400 .f32) (main_arg7 : FVec F S1200x400 .f32) (main_arg8 : FVec F S1200x1200 .f32) (main_arg9 : FVec F S1200 .f32) : IVec S_ 1 :=
  let main_v0 : FVec F S10000x500 .f32 := Host.absf main_arg0
  let main_cst : FVec F S_ .f32 := constant S_ .f32 0x7F800000#32
  let main_v1 : FVec F S10000x500 .f32 := broadcastInDim S10000x500 ![] bcast_S_S10000x500 main_cst
  let main_v2 : IVec S10000x500 1 := cmpf .olt main_v0 main_v1
  let main_c : IVec S_ 1 := constantI S_ 1 1#1
  let main_v3 : IVec S_ 1 := (fun x v => Host.reduce IntOp.andi x v reducesTo_S10000x500_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S500x400 .f32 := Host.absf main_arg2
  let main_cst_2 : FVec F S_ .f32 := constant S_ .f32 0x7F800000#32
  let main_v10 : FVec F S500x400 .f32 := broadcastInDim S500x400 ![] bcast_S_S500x400 main_cst_2
  let main_v11 : IVec S500x400 1 := cmpf .olt main_v9 main_v10
  let main_c_3 : IVec S_ 1 := constantI S_ 1 1#1
  let main_v12 : IVec S_ 1 := (fun x v => Host.reduce IntOp.andi x v reducesTo_S500x400_S_d0_1 h_S_) main_v11 main_c_3
  let main_v13 : IVec S_ 1 := andi main_v8 main_v12
  let main_v14 : FVec F S500x400 .f32 := Host.absf main_arg3
  let main_cst_4 : FVec F S_ .f32 := constant S_ .f32 0x7F800000#32
  let main_v15 : FVec F S500x400 .f32 := broadcastInDim S500x400 ![] bcast_S_S500x400 main_cst_4
  let main_v16 : IVec S500x400 1 := cmpf .olt main_v14 main_v15
  fn_part1 (F := F) main_arg4 main_arg5 main_arg6 main_arg7 main_arg8 main_arg9 main_v13 main_v16
-- ==== Kernel.lean ====
abbrev S10000x500 : Shape := ⟨2, ![10000, 500]⟩
abbrev S10000x10000 : Shape := ⟨2, ![10000, 10000]⟩
abbrev S500x400 : Shape := ⟨2, ![500, 400]⟩
abbrev S1200x400 : Shape := ⟨2, ![1200, 400]⟩
abbrev S1200x1200 : Shape := ⟨2, ![1200, 1200]⟩
abbrev S1200 : Shape := ⟨1, ![1200]⟩
abbrev S200x10000 : Shape := ⟨2, ![200, 10000]⟩
abbrev S10000x400 : Shape := ⟨2, ![10000, 400]⟩
abbrev S400x500 : Shape := ⟨2, ![400, 500]⟩
abbrev S400x400 : Shape := ⟨2, ![400, 400]⟩
abbrev S200x400 : Shape := ⟨2, ![200, 400]⟩
abbrev S10000x1200 : Shape := ⟨2, ![10000, 1200]⟩
abbrev S400x1200 : Shape := ⟨2, ![400, 1200]⟩
abbrev S1x1200 : Shape := ⟨2, ![1, 1200]⟩

abbrev nBuf : Space → Nat
  | .hbm => 27
  | .vmem => 70
  | .smem => 0
  | _ => 0

abbrev bufTy : (tb : Table) → Fin (tcTables nBuf tb) → BufTy
  | .hbm, ⟨0, _⟩ => ⟨S10000x500, .f32⟩
  | .hbm, ⟨1, _⟩ => ⟨S10000x10000, .f32⟩
  | .hbm, ⟨2, _⟩ => ⟨S500x400, .f32⟩
  | .hbm, ⟨3, _⟩ => ⟨S500x400, .f32⟩
  | .hbm, ⟨4, _⟩ => ⟨S500x400, .f32⟩
  | .hbm, ⟨5, _⟩ => ⟨S1200x400, .f32⟩
  | .hbm, ⟨6, _⟩ => ⟨S1200x400, .f32⟩
  | .hbm, ⟨7, _⟩ => ⟨S1200x400, .f32⟩
  | .hbm, ⟨8, _⟩ => ⟨S1200x1200, .f32⟩
  | .hbm, ⟨9, _⟩ => ⟨S1200, .f32⟩
  | .hbm, ⟨10, _⟩ => ⟨S10000x10000, .bf16⟩
  | .hbm, ⟨11, _⟩ => ⟨S10000x400, .bf16⟩
  | .hbm, ⟨12, _⟩ => ⟨S10000x400, .bf16⟩
  | .hbm, ⟨13, _⟩ => ⟨S10000x400, .bf16⟩
  | .hbm, ⟨14, _⟩ => ⟨S10000x400, .bf16⟩
  | .hbm, ⟨15, _⟩ => ⟨S10000x400, .bf16⟩
  | .hbm, ⟨16, _⟩ => ⟨S10000x400, .bf16⟩
  | .hbm, ⟨17, _⟩ => ⟨S10000x1200, .bf16⟩
  | .hbm, ⟨18, _⟩ => ⟨S10000x400, .bf16⟩
  | .hbm, ⟨19, _⟩ => ⟨S10000x400, .bf16⟩
  | .hbm, ⟨20, _⟩ => ⟨S10000x400, .bf16⟩
  | .hbm, ⟨21, _⟩ => ⟨S10000x400, .bf16⟩
  | .hbm, ⟨22, _⟩ => ⟨S10000x400, .bf16⟩
  | .hbm, ⟨23, _⟩ => ⟨S10000x400, .bf16⟩
  | .hbm, ⟨24, _⟩ => ⟨S10000x1200, .bf16⟩
  | .hbm, ⟨25, _⟩ => ⟨S1x1200, .f32⟩
  | .hbm, ⟨26, _⟩ => ⟨S10000x1200, .f32⟩
  | .local _ .vmem, ⟨0, _⟩ => ⟨S200x10000, .f32⟩
  | .local _ .vmem, ⟨1, _⟩ => ⟨S200x10000, .f32⟩
  | .local _ .vmem, ⟨2, _⟩ => ⟨S200x10000, .bf16⟩
  | .local _ .vmem, ⟨3, _⟩ => ⟨S200x10000, .bf16⟩
  | .local _ .vmem, ⟨4, _⟩ => ⟨S400x500, .f32⟩
  | .local _ .vmem, ⟨5, _⟩ => ⟨S400x500, .f32⟩
  | .local _ .vmem, ⟨6, _⟩ => ⟨S500x400, .f32⟩
  | .local _ .vmem, ⟨7, _⟩ => ⟨S400x400, .bf16⟩
  | .local _ .vmem, ⟨8, _⟩ => ⟨S400x400, .bf16⟩
  | .local _ .vmem, ⟨9, _⟩ => ⟨S400x500, .f32⟩
  | .local _ .vmem, ⟨10, _⟩ => ⟨S400x500, .f32⟩
  | .local _ .vmem, ⟨11, _⟩ => ⟨S500x400, .f32⟩
  | .local _ .vmem, ⟨12, _⟩ => ⟨S400x400, .bf16⟩
  | .local _ .vmem, ⟨13, _⟩ => ⟨S400x400, .bf16⟩
  | .local _ .vmem, ⟨14, _⟩ => ⟨S200x10000, .bf16⟩
  | .local _ .vmem, ⟨15, _⟩ => ⟨S200x10000, .bf16⟩
  | .local _ .vmem, ⟨16, _⟩ => ⟨S10000x400, .bf16⟩
  | .local _ .vmem, ⟨17, _⟩ => ⟨S200x400, .bf16⟩
  | .local _ .vmem, ⟨18, _⟩ => ⟨S200x400, .bf16⟩
  | .local _ .vmem, ⟨19, _⟩ => ⟨S400x500, .f32⟩
  | .local _ .vmem, ⟨20, _⟩ => ⟨S400x500, .f32⟩
  | .local _ .vmem, ⟨21, _⟩ => ⟨S500x400, .f32⟩
  | .local _ .vmem, ⟨22, _⟩ => ⟨S400x400, .bf16⟩
  | .local _ .vmem, ⟨23, _⟩ => ⟨S400x400, .bf16⟩
  | .local _ .vmem, ⟨24, _⟩ => ⟨S200x10000, .bf16⟩
  | .local _ .vmem, ⟨25, _⟩ => ⟨S200x10000, .bf16⟩
  | .local _ .vmem, ⟨26, _⟩ => ⟨S10000x400, .bf16⟩
  | .local _ .vmem, ⟨27, _⟩ => ⟨S200x400, .bf16⟩
  | .local _ .vmem, ⟨28, _⟩ => ⟨S200x400, .bf16⟩
  | .local _ .vmem, ⟨29, _⟩ => ⟨S200x10000, .bf16⟩
  | .local _ .vmem, ⟨30, _⟩ => ⟨S200x10000, .bf16⟩
  | .local _ .vmem, ⟨31, _⟩ => ⟨S10000x400, .bf16⟩
  | .local _ .vmem, ⟨32, _⟩ => ⟨S200x400, .bf16⟩
  | .local _ .vmem, ⟨33, _⟩ => ⟨S200x400, .bf16⟩
  | .local _ .vmem, ⟨34, _⟩ => ⟨S400x1200, .bf16⟩
  | .local _ .vmem, ⟨35, _⟩ => ⟨S400x1200, .bf16⟩
  | .local _ .vmem, ⟨36, _⟩ => ⟨S1200x400, .f32⟩
  | .local _ .vmem, ⟨37, _⟩ => ⟨S400x400, .bf16⟩
  | .local _ .vmem, ⟨38, _⟩ => ⟨S400x400, .bf16⟩
  | .local _ .vmem, ⟨39, _⟩ => ⟨S400x1200, .bf16⟩
  | .local _ .vmem, ⟨40, _⟩ => ⟨S400x1200, .bf16⟩
  | .local _ .vmem, ⟨41, _⟩ => ⟨S1200x400, .f32⟩
  | .local _ .vmem, ⟨42, _⟩ => ⟨S400x400, .bf16⟩
  | .local _ .vmem, ⟨43, _⟩ => ⟨S400x400, .bf16⟩
  | .local _ .vmem, ⟨44, _⟩ => ⟨S200x10000, .bf16⟩
  | .local _ .vmem, ⟨45, _⟩ => ⟨S200x10000, .bf16⟩
  | .local _ .vmem, ⟨46, _⟩ => ⟨S10000x400, .bf16⟩
  | .local _ .vmem, ⟨47, _⟩ => ⟨S200x400, .bf16⟩
  | .local _ .vmem, ⟨48, _⟩ => ⟨S200x400, .bf16⟩
  | .local _ .vmem, ⟨49, _⟩ => ⟨S400x1200, .bf16⟩
  | .local _ .vmem, ⟨50, _⟩ => ⟨S400x1200, .bf16⟩
  | .local _ .vmem, ⟨51, _⟩ => ⟨S1200x400, .f32⟩
  | .local _ .vmem, ⟨52, _⟩ => ⟨S400x400, .bf16⟩
  | .local _ .vmem, ⟨53, _⟩ => ⟨S400x400, .bf16⟩
  | .local _ .vmem, ⟨54, _⟩ => ⟨S200x10000, .bf16⟩
  | .local _ .vmem, ⟨55, _⟩ => ⟨S200x10000, .bf16⟩
  | .local _ .vmem, ⟨56, _⟩ => ⟨S10000x400, .bf16⟩
  | .local _ .vmem, ⟨57, _⟩ => ⟨S200x400, .bf16⟩
  | .local _ .vmem, ⟨58, _⟩ => ⟨S200x400, .bf16⟩
  | .local _ .vmem, ⟨59, _⟩ => ⟨S200x10000, .bf16⟩
  | .local _ .vmem, ⟨60, _⟩ => ⟨S200x10000, .bf16⟩
  | .local _ .vmem, ⟨61, _⟩ => ⟨S10000x400, .bf16⟩
  | .local _ .vmem, ⟨62, _⟩ => ⟨S200x400, .bf16⟩
  | .local _ .vmem, ⟨63, _⟩ => ⟨S200x400, .bf16⟩
  | .local _ .vmem, ⟨64, _⟩ => ⟨S400x1200, .bf16⟩
  | .local _ .vmem, ⟨65, _⟩ => ⟨S400x1200, .bf16⟩
  | .local _ .vmem, ⟨66, _⟩ => ⟨S1200x1200, .f32⟩
  | .local _ .vmem, ⟨67, _⟩ => ⟨S1x1200, .f32⟩
  | .local _ .vmem, ⟨68, _⟩ => ⟨S400x1200, .f32⟩
  | .local _ .vmem, ⟨69, _⟩ => ⟨S400x1200, .f32⟩
  | _, _ => ⟨S10000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc8_stg0_0 : Ref sig .tc := ⟨.vmem, 39, rfl⟩
abbrev cc8_stg0_1 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg2_1 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg2_0 : Ref sig .tc := ⟨.vmem, 47, rfl⟩
abbrev cc9_stg2_1 : Ref sig .tc := ⟨.vmem, 48, rfl⟩
abbrev cc10_stg0_0 : Ref sig .tc := ⟨.vmem, 49, rfl⟩
abbrev cc10_stg0_1 : Ref sig .tc := ⟨.vmem, 50, rfl⟩
abbrev cc10_stg1_0 : Ref sig .tc := ⟨.vmem, 51, rfl⟩
abbrev cc10_stg2_0 : Ref sig .tc := ⟨.vmem, 52, rfl⟩
abbrev cc10_stg2_1 : Ref sig .tc := ⟨.vmem, 53, rfl⟩
abbrev cc11_stg0_0 : Ref sig .tc := ⟨.vmem, 54, rfl⟩
abbrev cc11_stg0_1 : Ref sig .tc := ⟨.vmem, 55, rfl⟩
abbrev cc11_stg1_0 : Ref sig .tc := ⟨.vmem, 56, rfl⟩
abbrev cc11_stg2_0 : Ref sig .tc := ⟨.vmem, 57, rfl⟩
abbrev cc11_stg2_1 : Ref sig .tc := ⟨.vmem, 58, rfl⟩
abbrev cc12_stg0_0 : Ref sig .tc := ⟨.vmem, 59, rfl⟩
abbrev cc12_stg0_1 : Ref sig .tc := ⟨.vmem, 60, rfl⟩
abbrev cc12_stg1_0 : Ref sig .tc := ⟨.vmem, 61, rfl⟩
abbrev cc12_stg2_0 : Ref sig .tc := ⟨.vmem, 62, rfl⟩
abbrev cc12_stg2_1 : Ref sig .tc := ⟨.vmem, 63, rfl⟩
abbrev cc13_stg0_0 : Ref sig .tc := ⟨.vmem, 64, rfl⟩
abbrev cc13_stg0_1 : Ref sig .tc := ⟨.vmem, 65, rfl⟩
abbrev cc13_stg1_0 : Ref sig .tc := ⟨.vmem, 66, rfl⟩
abbrev cc13_stg2_0 : Ref sig .tc := ⟨.vmem, 67, rfl⟩
abbrev cc13_stg3_0 : Ref sig .tc := ⟨.vmem, 68, rfl⟩
abbrev cc13_stg3_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38
abbrev cc8_sem0_0 : DmaSem sig := 39
abbrev cc8_sem0_1 : DmaSem sig := 40
abbrev cc8_sem1_0 : DmaSem sig := 41
abbrev cc8_sem2_0 : DmaSem sig := 42
abbrev cc8_sem2_1 : DmaSem sig := 43
abbrev cc9_sem0_0 : DmaSem sig := 44
abbrev cc9_sem0_1 : DmaSem sig := 45
abbrev cc9_sem1_0 : DmaSem sig := 46
abbrev cc9_sem2_0 : DmaSem sig := 47
abbrev cc9_sem2_1 : DmaSem sig := 48
abbrev cc10_sem0_0 : DmaSem sig := 49
abbrev cc10_sem0_1 : DmaSem sig := 50
abbrev cc10_sem1_0 : DmaSem sig := 51
abbrev cc10_sem2_0 : DmaSem sig := 52
abbrev cc10_sem2_1 : DmaSem sig := 53
abbrev cc11_sem0_0 : DmaSem sig := 54
abbrev cc11_sem0_1 : DmaSem sig := 55
abbrev cc11_sem1_0 : DmaSem sig := 56
abbrev cc11_sem2_0 : DmaSem sig := 57
abbrev cc11_sem2_1 : DmaSem sig := 58
abbrev cc12_sem0_0 : DmaSem sig := 59
abbrev cc12_sem0_1 : DmaSem sig := 60
abbrev cc12_sem1_0 : DmaSem sig := 61
abbrev cc12_sem2_0 : DmaSem sig := 62
abbrev cc12_sem2_1 : DmaSem sig := 63
abbrev cc13_sem0_0 : DmaSem sig := 64
abbrev cc13_sem0_1 : DmaSem sig := 65
abbrev cc13_sem1_0 : DmaSem sig := 66
abbrev cc13_sem2_0 : DmaSem sig := 67
abbrev cc13_sem3_0 : DmaSem sig := 68
abbrev cc13_sem3_1 : DmaSem sig := 69

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x500 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S500x400 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x400 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x500 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S500x400 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x400 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x400 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x400 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x500 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S500x400 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x400 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x400 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x400 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S200x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x400 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S200x400 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x1200 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1200x400 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x400 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x1200 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1200x400 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x400 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S200x10000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S10000x400 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S200x400 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S400x1200 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1200x400 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S400x400 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S200x10000 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10000x400 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S200x400 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S200x10000 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S10000x400 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S200x400 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S400x1200 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1200x1200 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x1200 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S400x1200 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S400x500_S400x500_0_0 : ∀ a, (![0, 0] : Fin 2 → Nat) a + S400x500.size a ≤ S400x500.size a
  h_S400x500 : 0 < S400x500.numel
  inb_S500x400_S500x400_0_0 : ∀ a, (![0, 0] : Fin 2 → Nat) a + S500x400.size a ≤ S500x400.size a
  h_S500x400 : 0 < S500x400.numel
  inb_S400x400_S400x400_0_0 : ∀ a, (![0, 0] : Fin 2 → Nat) a + S400x400.size a ≤ S400x400.size a
  h_S400x400 : 0 < S400x400.numel
  packedbf16_S400x400_S400x400_0_0 : (Rect.unit (s := S400x400) ![0, 0] S400x400.size inb_S400x400_S400x400_0_0).PackedRows (EltTy.packing .bf16)
  shapeCasts_S200x10000_S200x10000 : S200x10000.ShapeCasts S200x10000
  inb_S10000x400_S10000x400_0_0 : ∀ a, (![0, 0] : Fin 2 → Nat) a + S10000x400.size a ≤ S10000x400.size a
  h_S10000x400 : 0 < S10000x400.numel
  shapeCasts_S10000x400_S10000x400 : S10000x400.ShapeCasts S10000x400
  inb_S200x400_S200x400_0_0 : ∀ a, (![0, 0] : Fin 2 → Nat) a + S200x400.size a ≤ S200x400.size a
  h_S200x400 : 0 < S200x400.numel
  packedbf16_S200x400_S200x400_0_0 : (Rect.unit (s := S200x400) ![0, 0] S200x400.size inb_S200x400_S200x400_0_0).PackedRows (EltTy.packing .bf16)
  concatenates_S10000x400_S10000x400_S10000x400_S10000x1200_d1 : Shape.Concatenates [S10000x400, S10000x400, S10000x400] S10000x1200 1
  inb_S400x1200_S400x1200_0_0 : ∀ a, (![0, 0] : Fin 2 → Nat) a + S400x1200.size a ≤ S400x1200.size a
  h_S400x1200 : 0 < S400x1200.numel
  shapeCasts_S400x1200_S400x1200 : S400x1200.ShapeCasts S400x1200
  inb_S1200x400_S1200x400_0_0 : ∀ a, (![0, 0] : Fin 2 → Nat) a + S1200x400.size a ≤ S1200x400.size a
  h_S1200x400 : 0 < S1200x400.numel
  shapeCasts_S1200_S1x1200 : S1200.ShapeCasts S1x1200
  inb_S1200x1200_S1200x1200_0_0 : ∀ a, (![0, 0] : Fin 2 → Nat) a + S1200x1200.size a ≤ S1200x1200.size a
  h_S1200x1200 : 0 < S1200x1200.numel
  inb_S1x1200_S1x1200_0_0 : ∀ a, (![0, 0] : Fin 2 → Nat) a + S1x1200.size a ≤ S1x1200.size a
  h_S1x1200 : 0 < S1x1200.numel
  shapeCasts_S1x1200_S1x1200 : S1x1200.ShapeCasts S1x1200
  broadcasts_S1x1200_S400x1200 : S1x1200.Broadcasts S400x1200
  dot_S400x500_S500x400_S400x400_1_0_0_1_n_n_wf : DotDims.WF S400x500 S500x400 S400x400 [1] [0] [0] [1] [] []
  dot_S200x10000_S10000x400_S200x400_1_0_0_1_n_n_wf : DotDims.WF S200x10000 S10000x400 S200x400 [1] [0] [0] [1] [] []
  dot_S400x1200_S1200x400_S400x400_1_0_0_1_n_n_wf : DotDims.WF S400x1200 S1200x400 S400x400 [1] [0] [0] [1] [] []
  dot_S400x1200_S1200x1200_S400x1200_1_0_0_1_n_n_wf : DotDims.WF S400x1200 S1200x1200 S400x1200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .bf16 = 32 ∨ (Rect.block (s := S10000x10000) S200x10000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x500.size a ≤ S10000x500.size a
  hwx1_0 : ∀ i : grid1.Coords, EltTy.bits .f32 = 32 ∨ (Rect.block (s := S10000x500) S400x500.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500x400.size a ≤ S500x400.size a
  hwx1_1 : ∀ i : grid1.Coords, EltTy.bits .f32 = 32 ∨ (Rect.block (s := S500x400) S500x400.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x400.size a ≤ S10000x400.size a
  hwx1_2 : ∀ i : grid1.Coords, EltTy.bits .bf16 = 32 ∨ (Rect.block (s := S10000x400) S400x400.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x500.size a ≤ S10000x500.size a
  hwx2_0 : ∀ i : grid2.Coords, EltTy.bits .f32 = 32 ∨ (Rect.block (s := S10000x500) S400x500.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S500x400.size a ≤ S500x400.size a
  hwx2_1 : ∀ i : grid2.Coords, EltTy.bits .f32 = 32 ∨ (Rect.block (s := S500x400) S500x400.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x400.size a ≤ S10000x400.size a
  hwx2_2 : ∀ i : grid2.Coords, EltTy.bits .bf16 = 32 ∨ (Rect.block (s := S10000x400) S400x400.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x400.size a ≤ S10000x400.size a
  hwx3_1 : ∀ i : grid3.Coords, EltTy.bits .bf16 = 32 ∨ (Rect.block (s := S10000x400) S10000x400.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x400.size a ≤ S10000x400.size a
  hwx3_2 : ∀ i : grid3.Coords, EltTy.bits .bf16 = 32 ∨ (Rect.block (s := S10000x400) S200x400.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x500.size a ≤ S10000x500.size a
  hwx4_0 : ∀ i : grid4.Coords, EltTy.bits .f32 = 32 ∨ (Rect.block (s := S10000x500) S400x500.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S500x400.size a ≤ S500x400.size a
  hwx4_1 : ∀ i : grid4.Coords, EltTy.bits .f32 = 32 ∨ (Rect.block (s := S500x400) S500x400.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x400.size a ≤ S10000x400.size a
  hwx4_2 : ∀ i : grid4.Coords, EltTy.bits .bf16 = 32 ∨ (Rect.block (s := S10000x400) S400x400.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .bf16 = 32 ∨ (Rect.block (s := S10000x10000) S200x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x400.size a ≤ S10000x400.size a
  hwx5_1 : ∀ i : grid5.Coords, EltTy.bits .bf16 = 32 ∨ (Rect.block (s := S10000x400) S10000x400.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x400.size a ≤ S10000x400.size a
  hwx5_2 : ∀ i : grid5.Coords, EltTy.bits .bf16 = 32 ∨ (Rect.block (s := S10000x400) S200x400.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S200x10000.size a ≤ S10000x10000.size a
  hwx6_0 : ∀ i : grid6.Coords, EltTy.bits .bf16 = 32 ∨ (Rect.block (s := S10000x10000) S200x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x400.size a ≤ S10000x400.size a
  hwx6_1 : ∀ i : grid6.Coords, EltTy.bits .bf16 = 32 ∨ (Rect.block (s := S10000x400) S10000x400.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S200x400.size a ≤ S10000x400.size a
  hwx6_2 : ∀ i : grid6.Coords, EltTy.bits .bf16 = 32 ∨ (Rect.block (s := S10000x400) S200x400.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x1200.size a ≤ S10000x1200.size a
  hwx7_0 : ∀ i : grid7.Coords, EltTy.bits .bf16 = 32 ∨ (Rect.block (s := S10000x1200) S400x1200.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1200x400.size a ≤ S1200x400.size a
  hwx7_1 : ∀ i : grid7.Coords, EltTy.bits .f32 = 32 ∨ (Rect.block (s := S1200x400) S1200x400.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x400.size a ≤ S10000x400.size a
  hwx7_2 : ∀ i : grid7.Coords, EltTy.bits .bf16 = 32 ∨ (Rect.block (s := S10000x400) S400x400.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x1200.size a ≤ S10000x1200.size a
  hwx8_0 : ∀ i : grid8.Coords, EltTy.bits .bf16 = 32 ∨ (Rect.block (s := S10000x1200) S400x1200.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1200x400.size a ≤ S1200x400.size a
  hwx8_1 : ∀ i : grid8.Coords, EltTy.bits .f32 = 32 ∨ (Rect.block (s := S1200x400) S1200x400.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x400.size a ≤ S10000x400.size a
  hwx8_2 : ∀ i : grid8.Coords, EltTy.bits .bf16 = 32 ∨ (Rect.block (s := S10000x400) S400x400.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S200x10000.size a ≤ S10000x10000.size a
  hwx9_0 : ∀ i : grid9.Coords, EltTy.bits .bf16 = 32 ∨ (Rect.block (s := S10000x10000) S200x10000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10000x400.size a ≤ S10000x400.size a
  hwx9_1 : ∀ i : grid9.Coords, EltTy.bits .bf16 = 32 ∨ (Rect.block (s := S10000x400) S10000x400.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S200x400.size a ≤ S10000x400.size a
  hwx9_2 : ∀ i : grid9.Coords, EltTy.bits .bf16 = 32 ∨ (Rect.block (s := S10000x400) S200x400.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S400x1200.size a ≤ S10000x1200.size a
  hwx10_0 : ∀ i : grid10.Coords, EltTy.bits .bf16 = 32 ∨ (Rect.block (s := S10000x1200) S400x1200.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1200x400.size a ≤ S1200x400.size a
  hwx10_1 : ∀ i : grid10.Coords, EltTy.bits .f32 = 32 ∨ (Rect.block (s := S1200x400) S1200x400.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S400x400.size a ≤ S10000x400.size a
  hwx10_2 : ∀ i : grid10.Coords, EltTy.bits .bf16 = 32 ∨ (Rect.block (s := S10000x400) S400x400.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S200x10000.size a ≤ S10000x10000.size a
  hwx11_0 : ∀ i : grid11.Coords, EltTy.bits .bf16 = 32 ∨ (Rect.block (s := S10000x10000) S200x10000.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10000x400.size a ≤ S10000x400.size a
  hwx11_1 : ∀ i : grid11.Coords, EltTy.bits .bf16 = 32 ∨ (Rect.block (s := S10000x400) S10000x400.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S200x400.size a ≤ S10000x400.size a
  hwx11_2 : ∀ i : grid11.Coords, EltTy.bits .bf16 = 32 ∨ (Rect.block (s := S10000x400) S200x400.size (cc11_transform_2 i) (hinb11_2 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S200x10000.size a ≤ S10000x10000.size a
  hwx12_0 : ∀ i : grid12.Coords, EltTy.bits .bf16 = 32 ∨ (Rect.block (s := S10000x10000) S200x10000.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S10000x400.size a ≤ S10000x400.size a
  hwx12_1 : ∀ i : grid12.Coords, EltTy.bits .bf16 = 32 ∨ (Rect.block (s := S10000x400) S10000x400.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S200x400.size a ≤ S10000x400.size a
  hwx12_2 : ∀ i : grid12.Coords, EltTy.bits .bf16 = 32 ∨ (Rect.block (s := S10000x400) S200x400.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S400x1200.size a ≤ S10000x1200.size a
  hwx13_0 : ∀ i : grid13.Coords, EltTy.bits .bf16 = 32 ∨ (Rect.block (s := S10000x1200) S400x1200.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1200x1200.size a ≤ S1200x1200.size a
  hwx13_1 : ∀ i : grid13.Coords, EltTy.bits .f32 = 32 ∨ (Rect.block (s := S1200x1200) S1200x1200.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1200.size a ≤ S1x1200.size a
  hwx13_2 : ∀ i : grid13.Coords, EltTy.bits .f32 = 32 ∨ (Rect.block (s := S1x1200) S1x1200.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S400x1200.size a ≤ S10000x1200.size a
  hwx13_3 : ∀ i : grid13.Coords, EltTy.bits .f32 = 32 ∨ (Rect.block (s := S10000x1200) S400x1200.size (cc13_transform_3 i) (hinb13_3 i)).WholeWords (EltTy.packing .f32)

variable [Facts₀]

def dot_S400x500_S500x400_S400x400_1_0_0_1_n_n : DotDims S400x500 S500x400 S400x400 where
  lhsContracting := [1]
  rhsContracting := [0]
  lhsNonContracting := [0]
  rhsNonContracting := [1]
  lhsBatch := []
  rhsBatch := []
  wf := dot_S400x500_S500x400_S400x400_1_0_0_1_n_n_wf
def dot_S200x10000_S10000x400_S200x400_1_0_0_1_n_n : DotDims S200x10000 S10000x400 S200x400 where
  lhsContracting := [1]
  rhsContracting := [0]
  lhsNonContracting := [0]
  rhsNonContracting := [1]
  lhsBatch := []
  rhsBatch := []
  wf := dot_S200x10000_S10000x400_S200x400_1_0_0_1_n_n_wf
def dot_S400x1200_S1200x400_S400x400_1_0_0_1_n_n : DotDims S400x1200 S1200x400 S400x400 where
  lhsContracting := [1]
  rhsContracting := [0]
  lhsNonContracting := [0]
  rhsNonContracting := [1]
  lhsBatch := []
  rhsBatch := []
  wf := dot_S400x1200_S1200x400_S400x400_1_0_0_1_n_n_wf
def dot_S400x1200_S1200x1200_S400x1200_1_0_0_1_n_n : DotDims S400x1200 S1200x1200 S400x1200 where
  lhsContracting := [1]
  rhsContracting := [0]
  lhsNonContracting := [0]
  rhsNonContracting := [1]
  lhsBatch := []
  rhsBatch := []
  wf := dot_S400x1200_S1200x1200_S400x1200_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x10000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S400x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S500x400.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S400x500.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S500x400.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x400.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x400.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S200x400.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S400x500.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S500x400.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S400x400.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S10000x400.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5) S200x400.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S200x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S10000x400.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v6) S200x400.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v7) S400x1200.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg5) S1200x400.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v8) S400x400.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v7) S400x1200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S1200x400.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v9) S400x400.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v0) S200x10000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S10000x400.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v10) S200x400.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v7) S400x1200.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S1200x400.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v11) S400x400.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v0) S200x10000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v11) S10000x400.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v12) S200x400.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v0) S200x10000.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v12) S10000x400.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v13) S200x400.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v14) S400x1200.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg8) S1200x1200.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v15) S1x1200.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v16) S400x1200.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S10000x500 : Shape := ⟨2, ![10000, 500]⟩
abbrev S10000x10000 : Shape := ⟨2, ![10000, 10000]⟩
abbrev S500x400 : Shape := ⟨2, ![500, 400]⟩
abbrev S1200x400 : Shape := ⟨2, ![1200, 400]⟩
abbrev S1200x1200 : Shape := ⟨2, ![1200, 1200]⟩
abbrev S1200 : Shape := ⟨1, ![1200]⟩
abbrev S10000x400 : Shape := ⟨2, ![10000, 400]⟩
abbrev S_ : Shape := ⟨0, ![]⟩
abbrev S10000x1200 : Shape := ⟨2, ![10000, 1200]⟩
abbrev S1x1200 : Shape := ⟨2, ![1, 1200]⟩

abbrev nBuf : Space → Nat
  | .hbm => 40
  | .vmem => 0
  | .smem => 0
  | _ => 0

abbrev bufTy : (tb : Table) → Fin (tcTables nBuf tb) → BufTy
  | .hbm, ⟨0, _⟩ => ⟨S10000x500, .f32⟩
  | .hbm, ⟨1, _⟩ => ⟨S10000x10000, .f32⟩
  | .hbm, ⟨2, _⟩ => ⟨S500x400, .f32⟩
  | .hbm, ⟨3, _⟩ => ⟨S500x400, .f32⟩
  | .hbm, ⟨4, _⟩ => ⟨S500x400, .f32⟩
  | .hbm, ⟨5, _⟩ => ⟨S1200x400, .f32⟩
  | .hbm, ⟨6, _⟩ => ⟨S1200x400, .f32⟩
  | .hbm, ⟨7, _⟩ => ⟨S1200x400, .f32⟩
  | .hbm, ⟨8, _⟩ => ⟨S1200x1200, .f32⟩
  | .hbm, ⟨9, _⟩ => ⟨S1200, .f32⟩
  | .hbm, ⟨10, _⟩ => ⟨S10000x400, .f32⟩
  | .hbm, ⟨11, _⟩ => ⟨S_, .f32⟩
  | .hbm, ⟨12, _⟩ => ⟨S10000x400, .f32⟩
  | .hbm, ⟨13, _⟩ => ⟨S10000x400, .f32⟩
  | .hbm, ⟨14, _⟩ => ⟨S10000x400, .f32⟩
  | .hbm, ⟨15, _⟩ => ⟨S_, .f32⟩
  | .hbm, ⟨16, _⟩ => ⟨S10000x400, .f32⟩
  | .hbm, ⟨17, _⟩ => ⟨S10000x400, .f32⟩
  | .hbm, ⟨18, _⟩ => ⟨S10000x400, .f32⟩
  | .hbm, ⟨19, _⟩ => ⟨S10000x400, .f32⟩
  | .hbm, ⟨20, _⟩ => ⟨S_, .f32⟩
  | .hbm, ⟨21, _⟩ => ⟨S10000x400, .f32⟩
  | .hbm, ⟨22, _⟩ => ⟨S10000x400, .f32⟩
  | .hbm, ⟨23, _⟩ => ⟨S10000x400, .f32⟩
  | .hbm, ⟨24, _⟩ => ⟨S10000x400, .f32⟩
  | .hbm, ⟨25, _⟩ => ⟨S10000x1200, .f32⟩
  | .hbm, ⟨26, _⟩ => ⟨S10000x400, .f32⟩
  | .hbm, ⟨27, _⟩ => ⟨S10000x400, .f32⟩
  | .hbm, ⟨28, _⟩ => ⟨S10000x400, .f32⟩
  | .hbm, ⟨29, _⟩ => ⟨S10000x400, .f32⟩
  | .hbm, ⟨30, _⟩ => ⟨S10000x400, .f32⟩
  | .hbm, ⟨31, _⟩ => ⟨S10000x400, .f32⟩
  | .hbm, ⟨32, _⟩ => ⟨S10000x1200, .f32⟩
  | .hbm, ⟨33, _⟩ => ⟨S10000x1200, .f32⟩
  | .hbm, ⟨34, _⟩ => ⟨S1x1200, .f32⟩
  | .hbm, ⟨35, _⟩ => ⟨S10000x1200, .f32⟩
  | .hbm, ⟨36, _⟩ => ⟨S10000x1200, .f32⟩
  | .hbm, ⟨37, _⟩ => ⟨S_, .f32⟩
  | .hbm, ⟨38, _⟩ => ⟨S10000x1200, .f32⟩
  | .hbm, ⟨39, _⟩ => ⟨S10000x1200, .f32⟩
  | _, _ => ⟨S10000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call2_cst : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call3_cst : Ref sig .tc := ⟨.hbm, 37, rfl⟩
abbrev main_call3_v0 : Ref sig .tc := ⟨.hbm, 38, rfl⟩
abbrev main_v21 : Ref sig .tc := ⟨.hbm, 39, rfl⟩

abbrev nD : Nat := 1
abbrev τ : Topo := Topo.v7x

variable {F : FTy → Type} [FloatOps F]

class Facts₀ : Prop where
  bcast_S_S10000x400 : S_.BroadcastsInDim S10000x400 (![] : Fin 0 → Fin S10000x400.rank)
  concatenates_S10000x400_S10000x400_S10000x400_S10000x1200_d1 : Shape.Concatenates [S10000x400, S10000x400, S10000x400] S10000x1200 1
  bcast_S1200_S1x1200_1 : S1200.BroadcastsInDim S1x1200 (![1] : Fin 1 → Fin S1x1200.rank)
  bcast_S1x1200_S10000x1200_0_1 : S1x1200.BroadcastsInDim S10000x1200 (![0, 1] : Fin 2 → Fin S10000x1200.rank)
  bcast_S_S10000x1200 : S_.BroadcastsInDim S10000x1200 (![] : Fin 0 → Fin S10000x1200.rank)
  dot_S10000x500_S500x400_S10000x400_1_0_0_1_n_n_wf : DotDims.WF S10000x500 S500x400 S10000x400 [1] [0] [0] [1] [] []
  dot_S10000x10000_S10000x400_S10000x400_1_0_0_1_n_n_wf : DotDims.WF S10000x10000 S10000x400 S10000x400 [1] [0] [0] [1] [] []
  dot_S10000x1200_S1200x400_S10000x400_1_0_0_1_n_n_wf : DotDims.WF S10000x1200 S1200x400 S10000x400 [1] [0] [0] [1] [] []
  dot_S10000x1200_S1200x1200_S10000x1200_1_0_0_1_n_n_wf : DotDims.WF S10000x1200 S1200x1200 S10000x1200 [1] [0] [0] [1] [] []

variable [Facts₀]

def dot_S10000x500_S500x400_S10000x400_1_0_0_1_n_n : DotDims S10000x500 S500x400 S10000x400 where
  lhsContracting := [1]
  rhsContracting := [0]
  lhsNonContracting := [0]
  rhsNonContracting := [1]
  lhsBatch := []
  rhsBatch := []
  wf := dot_S10000x500_S500x400_S10000x400_1_0_0_1_n_n_wf
def dot_S10000x10000_S10000x400_S10000x400_1_0_0_1_n_n : DotDims S10000x10000 S10000x400 S10000x400 where
  lhsContracting := [1]
  rhsContracting := [0]
  lhsNonContracting := [0]
  rhsNonContracting := [1]
  lhsBatch := []
  rhsBatch := []
  wf := dot_S10000x10000_S10000x400_S10000x400_1_0_0_1_n_n_wf
def dot_S10000x1200_S1200x400_S10000x400_1_0_0_1_n_n : DotDims S10000x1200 S1200x400 S10000x400 where
  lhsContracting := [1]
  rhsContracting := [0]
  lhsNonContracting := [0]
  rhsNonContracting := [1]
  lhsBatch := []
  rhsBatch := []
  wf := dot_S10000x1200_S1200x400_S10000x400_1_0_0_1_n_n_wf
def dot_S10000x1200_S1200x1200_S10000x1200_1_0_0_1_n_n : DotDims S10000x1200 S1200x1200 S10000x1200 where
  lhsContracting := [1]
  rhsContracting := [0]
  lhsNonContracting := [0]
  rhsNonContracting := [1]
  lhsBatch := []
  rhsBatch := []
  wf := dot_S10000x1200_S1200x1200_S10000x1200_1_0_0_1_n_n_wf

class Facts : Prop extends Facts₀ where

variable [Facts]
-- ==== Proof.K.Reg0.lean ====
import proofs.«110190_j59090160058610_1_alg».proof.Proof.Gen.Kernel.Launch
import proofs.«110190_j59090160058610_1_alg».proof.Proof.Gen.Kernel.Skeleton
import proofs.«110190_j59090160058610_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S200x10000 := Rect.unit (s := S200x10000) ![0, 0] S200x10000.size inb_S200x10000_S200x10000_0_0

def out0_1 (x0 : Vec F S200x10000 .f32) : Vec F S200x10000 .bf16 :=
  View.canon [⟨r0_a, k0_pay1 (View.ld x0 r0_a)⟩]

theorem cover0_1 (p0 : Vec F S200x10000 .bf16) (y : S200x10000.Idx) :
    ∃ pc ∈ ([⟨r0_a, p0⟩] : List (View.Piece (Elt F) S200x10000 .bf16)), y ∈ pc.1.set :=
  View.cover_of_tiled [⟨r0_a, p0⟩] S200x10000.size (by rfl) y

set_option maxHeartbeats 1000000 in
theorem sound_kernel0 (c : Dev nD) (E : Set ℕ) (i : grid0.Coords)
    (arg1 : Memref sig .tc .vmem S200x10000 .f32) (harg1 : arg1.IsWhole)
    (arg2 : Memref sig .tc .vmem S200x10000 .bf16) (harg2 : arg2.IsWhole)
    (x0 : Vec F S200x10000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_bf16_kernel i arg1 harg1 arg2 harg2) K := by
  simp only [cc0__cast_bf16_kernel_eq_skeleton]; unfold cc0__cast_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«110190_j59090160058610_1_alg».proof.Proof.Gen.Kernel.Launch
import proofs.«110190_j59090160058610_1_alg».proof.Proof.Gen.Kernel.Skeleton
import proofs.«110190_j59090160058610_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S400x500 := Rect.unit (s := S400x500) ![0, 0] S400x500.size inb_S400x500_S400x500_0_0
abbrev r1_b : Rect S500x400 := Rect.unit (s := S500x400) ![0, 0] S500x400.size inb_S500x400_S500x400_0_0
abbrev r1_o : Rect S400x400 := Rect.unit (s := S400x400) ![0, 0] S400x400.size inb_S400x400_S400x400_0_0

def out1_2 (x0 : Vec F S400x500 .f32) (x1 : Vec F S500x400 .f32) : Vec F S400x400 .bf16 :=
  View.canon [⟨r1_o, k1_pay1 (View.ld x0 r1_a) (View.ld x1 r1_b)⟩]

theorem cover1_2 (p0 : Vec F S400x400 .bf16) (y : S400x400.Idx) :
    ∃ pc ∈ ([⟨r1_o, p0⟩] : List (View.Piece (Elt F) S400x400 .bf16)), y ∈ pc.1.set :=
  View.cover_of_tiled [⟨r1_o, p0⟩] S400x400.size (by rfl) y

set_option maxHeartbeats 1000000 in
theorem sound_kernel1 (c : Dev nD) (E : Set ℕ) (i : grid1.Coords)
    (arg1 : Memref sig .tc .vmem S400x500 .f32) (harg1 : arg1.IsWhole)
    (arg2 : Memref sig .tc .vmem S500x400 .f32) (harg2 : arg2.IsWhole)
    (arg3 : Memref sig .tc .vmem S400x400 .bf16) (harg3 : arg3.IsWhole)
    (x0 : Vec F S400x500 .f32) (x1 : Vec F S500x400 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
import proofs.«110190_j59090160058610_1_alg».proof.Proof.K.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem cc2_eq : cc2_kernel (F := F) = cc1_kernel := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out1_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out1_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  rw [cc2_eq]
  iintro ⟨HΦ, Ho, ⟨%d0, H0⟩, ⟨%d1, H1⟩, ⟨%d2, H2⟩⟩
  iapply (sound_kernel1 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
import proofs.«110190_j59090160058610_1_alg».proof.Proof.Gen.Kernel.Launch
import proofs.«110190_j59090160058610_1_alg».proof.Proof.Gen.Kernel.Skeleton
import proofs.«110190_j59090160058610_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S200x10000 := Rect.unit (s := S200x10000) ![0, 0] S200x10000.size inb_S200x10000_S200x10000_0_0
abbrev r3_b : Rect S10000x400 := Rect.unit (s := S10000x400) ![0, 0] S10000x400.size inb_S10000x400_S10000x400_0_0
abbrev r3_o : Rect S200x400 := Rect.unit (s := S200x400) ![0, 0] S200x400.size inb_S200x400_S200x400_0_0

def out3_2 (x0 : Vec F S200x10000 .bf16) (x1 : Vec F S10000x400 .bf16) : Vec F S200x400 .bf16 :=
  View.canon [⟨r3_o, k3_pay1 (View.ld x0 r3_a) (View.ld x1 r3_b)⟩]

theorem cover3_2 (p0 : Vec F S200x400 .bf16) (y : S200x400.Idx) :
    ∃ pc ∈ ([⟨r3_o, p0⟩] : List (View.Piece (Elt F) S200x400 .bf16)), y ∈ pc.1.set :=
  View.cover_of_tiled [⟨r3_o, p0⟩] S200x400.size (by rfl) y

set_option maxHeartbeats 1000000 in
theorem sound_kernel3 (c : Dev nD) (E : Set ℕ) (i : grid3.Coords)
    (arg1 : Memref sig .tc .vmem S200x10000 .bf16) (harg1 : arg1.IsWhole)
    (arg2 : Memref sig .tc .vmem S10000x400 .bf16) (harg2 : arg2.IsWhole)
    (arg3 : Memref sig .tc .vmem S200x400 .bf16) (harg3 : arg3.IsWhole)
    (x0 : Vec F S200x10000 .bf16) (x1 : Vec F S10000x400 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Reg4.lean ====
import proofs.«110190_j59090160058610_1_alg».proof.Proof.K.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq : cc4_kernel (F := F) = cc1_kernel := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out1_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out1_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  rw [cc4_eq]
  iintro ⟨HΦ, Ho, ⟨%d0, H0⟩, ⟨%d1, H1⟩, ⟨%d2, H2⟩⟩
  iapply (sound_kernel1 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Reg5.lean ====
import proofs.«110190_j59090160058610_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5_kernel (F := F) = cc3_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out3_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out3_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  rw [cc5_eq]
  iintro ⟨HΦ, Ho, ⟨%d0, H0⟩, ⟨%d1, H1⟩, ⟨%d2, H2⟩⟩
  iapply (sound_kernel3 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.Reg6.lean ====
import proofs.«110190_j59090160058610_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem cc6_eq : cc6_kernel (F := F) = cc3_kernel := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out3_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out3_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  rw [cc6_eq]
  iintro ⟨HΦ, Ho, ⟨%d0, H0⟩, ⟨%d1, H1⟩, ⟨%d2, H2⟩⟩
  iapply (sound_kernel3 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.Reg7.lean ====
import proofs.«110190_j59090160058610_1_alg».proof.Proof.Gen.Kernel.Launch
import proofs.«110190_j59090160058610_1_alg».proof.Proof.Gen.Kernel.Skeleton
import proofs.«110190_j59090160058610_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S400x1200 := Rect.unit (s := S400x1200) ![0, 0] S400x1200.size inb_S400x1200_S400x1200_0_0
abbrev r7_b : Rect S1200x400 := Rect.unit (s := S1200x400) ![0, 0] S1200x400.size inb_S1200x400_S1200x400_0_0
abbrev r7_o : Rect S400x400 := Rect.unit (s := S400x400) ![0, 0] S400x400.size inb_S400x400_S400x400_0_0

def out7_2 (x0 : Vec F S400x1200 .bf16) (x1 : Vec F S1200x400 .f32) : Vec F S400x400 .bf16 :=
  View.canon [⟨r7_o, k7_pay1 (View.ld x0 r7_a) (View.ld x1 r7_b)⟩]

theorem cover7_2 (p0 : Vec F S400x400 .bf16) (y : S400x400.Idx) :
    ∃ pc ∈ ([⟨r7_o, p0⟩] : List (View.Piece (Elt F) S400x400 .bf16)), y ∈ pc.1.set :=
  View.cover_of_tiled [⟨r7_o, p0⟩] S400x400.size (by rfl) y

set_option maxHeartbeats 1000000 in
theorem sound_kernel7 (c : Dev nD) (E : Set ℕ) (i : grid7.Coords)
    (arg1 : Memref sig .tc .vmem S400x1200 .bf16) (harg1 : arg1.IsWhole)
    (arg2 : Memref sig .tc .vmem S1200x400 .f32) (harg2 : arg2.IsWhole)
    (arg3 : Memref sig .tc .vmem S400x400 .bf16) (harg3 : arg3.IsWhole)
    (x0 : Vec F S400x1200 .bf16) (x1 : Vec F S1200x400 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.K.Reg8.lean ====
import proofs.«110190_j59090160058610_1_alg».proof.Proof.K.Reg7

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8_kernel (F := F) = cc7_kernel := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out7_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out7_2 (iblk8 V c 0 t) (iblk8 V c 1 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  rw [cc8_eq]
  iintro ⟨HΦ, Ho, ⟨%d0, H0⟩, ⟨%d1, H1⟩, ⟨%d2, H2⟩⟩
  iapply (sound_kernel7 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.K.Reg9.lean ====
import proofs.«110190_j59090160058610_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem cc9_eq : cc9_kernel (F := F) = cc3_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out3_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out3_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  rw [cc9_eq]
  iintro ⟨HΦ, Ho, ⟨%d0, H0⟩, ⟨%d1, H1⟩, ⟨%d2, H2⟩⟩
  iapply (sound_kernel3 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.K.Reg10.lean ====
import proofs.«110190_j59090160058610_1_alg».proof.Proof.K.Reg7

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem cc10_eq : cc10_kernel (F := F) = cc7_kernel := rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out7_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out7_2 (iblk10 V c 0 t) (iblk10 V c 1 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  rw [cc10_eq]
  iintro ⟨HΦ, Ho, ⟨%d0, H0⟩, ⟨%d1, H1⟩, ⟨%d2, H2⟩⟩
  iapply (sound_kernel7 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.K.Reg11.lean ====
import proofs.«110190_j59090160058610_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem cc11_eq : cc11_kernel (F := F) = cc3_kernel := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out3_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out3_2 (iblk11 V c 0 t) (iblk11 V c 1 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  rw [cc11_eq]
  iintro ⟨HΦ, Ho, ⟨%d0, H0⟩, ⟨%d1, H1⟩, ⟨%d2, H2⟩⟩
  iapply (sound_kernel3 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.K.Reg12.lean ====
import proofs.«110190_j59090160058610_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem cc12_eq : cc12_kernel (F := F) = cc3_kernel := rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out3_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out3_2 (iblk12 V c 0 t) (iblk12 V c 1 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  rw [cc12_eq]
  iintro ⟨HΦ, Ho, ⟨%d0, H0⟩, ⟨%d1, H1⟩, ⟨%d2, H2⟩⟩
  iapply (sound_kernel3 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.Kernel.Fr

end
-- ==== Proof.K.Reg13.lean ====
import proofs.«110190_j59090160058610_1_alg».proof.Proof.Gen.Kernel.Launch
import proofs.«110190_j59090160058610_1_alg».proof.Proof.Gen.Kernel.Skeleton
import proofs.«110190_j59090160058610_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_a : Rect S400x1200 := Rect.unit (s := S400x1200) ![0, 0] S400x1200.size inb_S400x1200_S400x1200_0_0
abbrev r13_b : Rect S1200x1200 := Rect.unit (s := S1200x1200) ![0, 0] S1200x1200.size inb_S1200x1200_S1200x1200_0_0
abbrev r13_v : Rect S1x1200 := Rect.unit (s := S1x1200) ![0, 0] S1x1200.size inb_S1x1200_S1x1200_0_0

def out13_3 (x0 : Vec F S400x1200 .bf16) (x1 : Vec F S1200x1200 .f32) (x2 : Vec F S1x1200 .f32) : Vec F S400x1200 .f32 :=
  View.canon [⟨r13_a, k13_pay1 (View.ld x0 r13_a) (View.ld x1 r13_b) (View.ld x2 r13_v)⟩]

theorem cover13_3 (p0 : Vec F S400x1200 .f32) (y : S400x1200.Idx) :
    ∃ pc ∈ ([⟨r13_a, p0⟩] : List (View.Piece (Elt F) S400x1200 .f32)), y ∈ pc.1.set :=
  View.cover_of_tiled [⟨r13_a, p0⟩] S400x1200.size (by rfl) y

set_option maxHeartbeats 1000000 in
theorem sound_kernel13 (c : Dev nD) (E : Set ℕ) (i : grid13.Coords)
    (arg1 : Memref sig .tc .vmem S400x1200 .bf16) (harg1 : arg1.IsWhole)
    (arg2 : Memref sig .tc .vmem S1200x1200 .f32) (harg2 : arg2.IsWhole)
    (arg3 : Memref sig .tc .vmem S1x1200 .f32) (harg3 : arg3.IsWhole)
    (arg4 : Memref sig .tc .vmem S400x1200 .f32) (harg4 : arg4.IsWhole)
    (x0 : Vec F S400x1200 .bf16) (x1 : Vec F S1200x1200 .f32) (x2 : Vec F S1x1200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__matmul_bias_relu_kernel i arg1 harg1 arg2 harg2 arg3 harg3 arg4 harg4) K := by
  simp only [cc13__matmul_bias_relu_kernel_eq_skeleton]; unfold cc13__matmul_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.Kernel.Fr

end
-- ==== Proof.K.Fold.lean ====
import proofs.«110190_j59090160058610_1_alg».proof.Proof.K.Reg0
import proofs.«110190_j59090160058610_1_alg».proof.Proof.K.Reg1
import proofs.«110190_j59090160058610_1_alg».proof.Proof.K.Reg2
import proofs.«110190_j59090160058610_1_alg».proof.Proof.K.Reg3
import proofs.«110190_j59090160058610_1_alg».proof.Proof.K.Reg4
import proofs.«110190_j59090160058610_1_alg».proof.Proof.K.Reg5
import proofs.«110190_j59090160058610_1_alg».proof.Proof.K.Reg6
import proofs.«110190_j59090160058610_1_alg».proof.Proof.K.Reg7
import proofs.«110190_j59090160058610_1_alg».proof.Proof.K.Reg8
import proofs.«110190_j59090160058610_1_alg».proof.Proof.K.Reg9
import proofs.«110190_j59090160058610_1_alg».proof.Proof.K.Reg10
import proofs.«110190_j59090160058610_1_alg».proof.Proof.K.Reg11
import proofs.«110190_j59090160058610_1_alg».proof.Proof.K.Reg12
import proofs.«110190_j59090160058610_1_alg».proof.Proof.K.Reg13
import proofs.«110190_j59090160058610_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable {p : Fin 14} (c : Dev nD)
  (d : Dat τ (Elt F) Unit ℕ (UR sig nD τ) ℕ (cfgs p) c) (W : Valuation τ sig (Elt F))

/-- The buffers after region p entered at W: its windows' arrays at their final contents, every other buffer as entered. -/
def next : Valuation τ sig (Elt F) := Pipeline.withArrays (cfgs p).spec c W fun w => d.arrAt w (cfgs p).N

theorem next_arr (lf : Pipeline.LaunchFacts (nD := nD) (τ := τ) cfgs p) (w : Fin (cfgs p).W) : next c d W (Proc.devRef .tc (Pipeline.arrRef (cfgs p).spec w)) = d.arrAt w (cfgs p).N :=
  Pipeline.withArrays_arr _ lf.win.arr_inj c _ _ w

theorem next_of_ne (b : Ref sig .tc) (hb : ∀ w, Pipeline.arrRef (cfgs p).spec w ≠ b) : next c d W (Proc.devRef .tc b) = W (Proc.devRef .tc b) :=
  Pipeline.withArrays_of_ne _ c _ _ b hb

/-- An input window's array is left as found, and a buffer that is no window's array is not touched. -/
theorem next_keep (lf : Pipeline.LaunchFacts (nD := nD) (τ := τ) cfgs p) (hA : ∀ w, d.A w = W (Proc.devRef .tc (Pipeline.arrRef (cfgs p).spec w))) (o : Ref sig .tc)
    (hio : ∀ w, Pipeline.arrRef (cfgs p).spec w ≠ o → ((cfgs p).win w).isOut = false) (b : Ref sig .tc) (hb : b ≠ o) :
    next c d W (Proc.devRef .tc b) = W (Proc.devRef .tc b) := by
  by_cases h : ∃ w, Pipeline.arrRef (cfgs p).spec w = b
  · obtain ⟨w, rfl⟩ := h
    exact (next_arr c d W lf w).trans ((d.arrAt_in w (hio w hb) _).trans (hA w))
  · exact next_of_ne c d W b fun w e => h ⟨w, e⟩
end

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) := next (p := 0) c (dat0 (V0 m) c) (W0 m c)
abbrev V1 : (c : Dev nD) → (b : Ref sig .tc) → Buf (Elt F) ((c : Thread nD τ).loc b) := fun c b => W1 m c b
theorem W1_keep (c : Dev nD) (b : Ref sig .tc) (hb : b ≠ main_v0) : W1 m c (Proc.devRef .tc b) = W0 m c (Proc.devRef .tc b) :=
  next_keep c _ _ launch0 (fun _ => rfl) main_v0 (by decide) b hb
theorem W1_result (c : Dev nD) : W1 m c (Proc.devRef .tc main_v0) = (dat0 (V0 m) c).arrAt 1 cfg0.N := next_arr c _ _ launch0 1

def W2 (c : Dev nD) : Valuation τ sig (Elt F) := next (p := 1) c (dat1 (V1 m) c) (W1 m c)
abbrev V2 : (c : Dev nD) → (b : Ref sig .tc) → Buf (Elt F) ((c : Thread nD τ).loc b) := fun c b => W2 m c b
theorem W2_keep (c : Dev nD) (b : Ref sig .tc) (hb : b ≠ main_v1) : W2 m c (Proc.devRef .tc b) = W1 m c (Proc.devRef .tc b) :=
  next_keep c _ _ launch1 (fun _ => rfl) main_v1 (by decide) b hb
theorem W2_result (c : Dev nD) : W2 m c (Proc.devRef .tc main_v1) = (dat1 (V1 m) c).arrAt 2 cfg1.N := next_arr c _ _ launch1 2

def W3 (c : Dev nD) : Valuation τ sig (Elt F) := next (p := 2) c (dat2 (V2 m) c) (W2 m c)
abbrev V3 : (c : Dev nD) → (b : Ref sig .tc) → Buf (Elt F) ((c : Thread nD τ).loc b) := fun c b => W3 m c b
theorem W3_keep (c : Dev nD) (b : Ref sig .tc) (hb : b ≠ main_v2) : W3 m c (Proc.devRef .tc b) = W2 m c (Proc.devRef .tc b) :=
  next_keep c _ _ launch2 (fun _ => rfl) main_v2 (by decide) b hb
theorem W3_result (c : Dev nD) : W3 m c (Proc.devRef .tc main_v2) = (dat2 (V2 m) c).arrAt 2 cfg2.N := next_arr c _ _ launch2 2

def W4 (c : Dev nD) : Valuation τ sig (Elt F) := next (p := 3) c (dat3 (V3 m) c) (W3 m c)
abbrev V4 : (c : Dev nD) → (b : Ref sig .tc) → Buf (Elt F) ((c : Thread nD τ).loc b) := fun c b => W4 m c b
theorem W4_keep (c : Dev nD) (b : Ref sig .tc) (hb : b ≠ main_v3) : W4 m c (Proc.devRef .tc b) = W3 m c (Proc.devRef .tc b) :=
  next_keep c _ _ launch3 (fun _ => rfl) main_v3 (by decide) b hb
theorem W4_result (c : Dev nD) : W4 m c (Proc.devRef .tc main_v3) = (dat3 (V3 m) c).arrAt 2 cfg3.N := next_arr c _ _ launch3 2

def W5 (c : Dev nD) : Valuation τ sig (Elt F) := next (p := 4) c (dat4 (V4 m) c) (W4 m c)
abbrev V5 : (c : Dev nD) → (b : Ref sig .tc) → Buf (Elt F) ((c : Thread nD τ).loc b) := fun c b => W5 m c b
theorem W5_keep (c : Dev nD) (b : Ref sig .tc) (hb : b ≠ main_v4) : W5 m c (Proc.devRef .tc b) = W4 m c (Proc.devRef .tc b) :=
  next_keep c _ _ launch4 (fun _ => rfl) main_v4 (by decide) b hb
theorem W5_result (c : Dev nD) : W5 m c (Proc.devRef .tc main_v4) = (dat4 (V4 m) c).arrAt 2 cfg4.N := next_arr c _ _ launch4 2

def W6 (c : Dev nD) : Valuation τ sig (Elt F) := next (p := 5) c (dat5 (V5 m) c) (W5 m c)
abbrev V6 : (c : Dev nD) → (b : Ref sig .tc) → Buf (Elt F) ((c : Thread nD τ).loc b) := fun c b => W6 m c b
theorem W6_keep (c : Dev nD) (b : Ref sig .tc) (hb : b ≠ main_v5) : W6 m c (Proc.devRef .tc b) = W5 m c (Proc.devRef .tc b) :=
  next_keep c _ _ launch5 (fun _ => rfl) main_v5 (by decide) b hb
theorem W6_result (c : Dev nD) : W6 m c (Proc.devRef .tc main_v5) = (dat5 (V5 m) c).arrAt 2 cfg5.N := next_arr c _ _ launch5 2

def W7 (c : Dev nD) : Valuation τ sig (Elt F) := next (p := 6) c (dat6 (V6 m) c) (W6 m c)
abbrev V7 : (c : Dev nD) → (b : Ref sig .tc) → Buf (Elt F) ((c : Thread nD τ).loc b) := fun c b => W7 m c b
theorem W7_keep (c : Dev nD) (b : Ref sig .tc) (hb : b ≠ main_v6) : W7 m c (Proc.devRef .tc b) = W6 m c (Proc.devRef .tc b) :=
  next_keep c _ _ launch6 (fun _ => rfl) main_v6 (by decide) b hb
theorem W7_result (c : Dev nD) : W7 m c (Proc.devRef .tc main_v6) = (dat6 (V6 m) c).arrAt 2 cfg6.N := next_arr c _ _ launch6 2

abbrev W8 : Dev nD → Valuation τ sig (Elt F) := fun c => StableHlo.after hostOps7 (W7 m c)
abbrev V8 : (c : Dev nD) → (b : Ref sig .tc) → Buf (Elt F) ((c : Thread nD τ).loc b) := fun c b => W8 m c b
theorem W8_keep (c : Dev nD) (b : Ref sig .tc) (hb : b ∉ hostOps7_W) : W8 m c (Proc.devRef .tc b) = W7 m c (Proc.devRef .tc b) :=
  StableHlo.after_of_writes_sub hostOps7 _ hostOps7_writes hb

def W9 (c : Dev nD) : Valuation τ sig (Elt F) := next (p := 7) c (dat7 (V8 m) c) (W8 m c)
abbrev V9 : (c : Dev nD) → (b : Ref sig .tc) → Buf (Elt F) ((c : Thread nD τ).loc b) := fun c b => W9 m c b
theorem W9_keep (c : Dev nD) (b : Ref sig .tc) (hb : b ≠ main_v8) : W9 m c (Proc.devRef .tc b) = W8 m c (Proc.devRef .tc b) :=
  next_keep c _ _ launch7 (fun _ => rfl) main_v8 (by decide) b hb
theorem W9_result (c : Dev nD) : W9 m c (Proc.devRef .tc main_v8) = (dat7 (V8 m) c).arrAt 2 cfg7.N := next_arr c _ _ launch7 2

def W10 (c : Dev nD) : Valuation τ sig (Elt F) := next (p := 8) c (dat8 (V9 m) c) (W9 m c)
abbrev V10 : (c : Dev nD) → (b : Ref sig .tc) → Buf (Elt F) ((c : Thread nD τ).loc b) := fun c b => W10 m c b
theorem W10_keep (c : Dev nD) (b : Ref sig .tc) (hb : b ≠ main_v9) : W10 m c (Proc.devRef .tc b) = W9 m c (Proc.devRef .tc b) :=
  next_keep c _ _ launch8 (fun _ => rfl) main_v9 (by decide) b hb
theorem W10_result (c : Dev nD) : W10 m c (Proc.devRef .tc main_v9) = (dat8 (V9 m) c).arrAt 2 cfg8.N := next_arr c _ _ launch8 2

def W11 (c : Dev nD) : Valuation τ sig (Elt F) := next (p := 9) c (dat9 (V10 m) c) (W10 m c)
abbrev V11 : (c : Dev nD) → (b : Ref sig .tc) → Buf (Elt F) ((c : Thread nD τ).loc b) := fun c b => W11 m c b
theorem W11_keep (c : Dev nD) (b : Ref sig .tc) (hb : b ≠ main_v10) : W11 m c (Proc.devRef .tc b) = W10 m c (Proc.devRef .tc b) :=
  next_keep c _ _ launch9 (fun _ => rfl) main_v10 (by decide) b hb
theorem W11_result (c : Dev nD) : W11 m c (Proc.devRef .tc main_v10) = (dat9 (V10 m) c).arrAt 2 cfg9.N := next_arr c _ _ launch9 2

def W12 (c : Dev nD) : Valuation τ sig (Elt F) := next (p := 10) c (dat10 (V11 m) c) (W11 m c)
abbrev V12 : (c : Dev nD) → (b : Ref sig .tc) → Buf (Elt F) ((c : Thread nD τ).loc b) := fun c b => W12 m c b
theorem W12_keep (c : Dev nD) (b : Ref sig .tc) (hb : b ≠ main_v11) : W12 m c (Proc.devRef .tc b) = W11 m c (Proc.devRef .tc b) :=
  next_keep c _ _ launch10 (fun _ => rfl) main_v11 (by decide) b hb
theorem W12_result (c : Dev nD) : W12 m c (Proc.devRef .tc main_v11) = (dat10 (V11 m) c).arrAt 2 cfg10.N := next_arr c _ _ launch10 2

def W13 (c : Dev nD) : Valuation τ sig (Elt F) := next (p := 11) c (dat11 (V12 m) c) (W12 m c)
abbrev V13 : (c : Dev nD) → (b : Ref sig .tc) → Buf (Elt F) ((c : Thread nD τ).loc b) := fun c b => W13 m c b
theorem W13_keep (c : Dev nD) (b : Ref sig .tc) (hb : b ≠ main_v12) : W13 m c (Proc.devRef .tc b) = W12 m c (Proc.devRef .tc b) :=
  next_keep c _ _ launch11 (fun _ => rfl) main_v12 (by decide) b hb
theorem W13_result (c : Dev nD) : W13 m c (Proc.devRef .tc main_v12) = (dat11 (V12 m) c).arrAt 2 cfg11.N := next_arr c _ _ launch11 2

def W14 (c : Dev nD) : Valuation τ sig (Elt F) := next (p := 12) c (dat12 (V13 m) c) (W13 m c)
abbrev V14 : (c : Dev nD) → (b : Ref sig .tc) → Buf (Elt F) ((c : Thread nD τ).loc b) := fun c b => W14 m c b
theorem W14_keep (c : Dev nD) (b : Ref sig .tc) (hb : b ≠ main_v13) : W14 m c (Proc.devRef .tc b) = W13 m c (Proc.devRef .tc b) :=
  next_keep c _ _ launch12 (fun _ => rfl) main_v13 (by decide) b hb
theorem W14_result (c : Dev nD) : W14 m c (Proc.devRef .tc main_v13) = (dat12 (V13 m) c).arrAt 2 cfg12.N := next_arr c _ _ launch12 2

abbrev W15 : Dev nD → Valuation τ sig (Elt F) := fun c => StableHlo.after hostOps13 (W14 m c)
abbrev V15 : (c : Dev nD) → (b : Ref sig .tc) → Buf (Elt F) ((c : Thread nD τ).loc b) := fun c b => W15 m c b
theorem W15_keep (c : Dev nD) (b : Ref sig .tc) (hb : b ∉ hostOps13_W) : W15 m c (Proc.devRef .tc b) = W14 m c (Proc.devRef .tc b) :=
  StableHlo.after_of_writes_sub hostOps13 _ hostOps13_writes hb

def W16 (c : Dev nD) : Valuation τ sig (Elt F) := next (p := 13) c (dat13 (V15 m) c) (W15 m c)
abbrev V16 : (c : Dev nD) → (b : Ref sig .tc) → Buf (Elt F) ((c : Thread nD τ).loc b) := fun c b => W16 m c b
theorem W16_keep (c : Dev nD) (b : Ref sig .tc) (hb : b ≠ main_v16) : W16 m c (Proc.devRef .tc b) = W15 m c (Proc.devRef .tc b) :=
  next_keep c _ _ launch13 (fun _ => rfl) main_v16 (by decide) b hb
theorem W16_result (c : Dev nD) : W16 m c (Proc.devRef .tc main_v16) = (dat13 (V15 m) c).arrAt 3 cfg13.N := next_arr c _ _ launch13 3

end Cert.Kernel.Fr

end
-- ==== Proof.K.Data.lean ====
import proofs.«110190_j59090160058610_1_alg».proof.Proof.K.Fold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents each region is entered with. -/
def Wat : Fin 14 → Dev nD → Valuation τ sig (Elt F)
  | ⟨0, _⟩ => W0 m
  | ⟨1, _⟩ => W1 m
  | ⟨2, _⟩ => W2 m
  | ⟨3, _⟩ => W3 m
  | ⟨4, _⟩ => W4 m
  | ⟨5, _⟩ => W5 m
  | ⟨6, _⟩ => W6 m
  | ⟨7, _⟩ => W8 m
  | ⟨8, _⟩ => W9 m
  | ⟨9, _⟩ => W10 m
  | ⟨10, _⟩ => W11 m
  | ⟨11, _⟩ => W12 m
  | ⟨12, _⟩ => W13 m
  | ⟨13, _⟩ => W15 m

/-- Each region's proof data, at the contents the region is entered with. -/
def pdats : (p : Fin 14) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
  | ⟨5, _⟩ => fun c => dat5 (V5 m) c
  | ⟨6, _⟩ => fun c => dat6 (V6 m) c
  | ⟨7, _⟩ => fun c => dat7 (V8 m) c
  | ⟨8, _⟩ => fun c => dat8 (V9 m) c
  | ⟨9, _⟩ => fun c => dat9 (V10 m) c
  | ⟨10, _⟩ => fun c => dat10 (V11 m) c
  | ⟨11, _⟩ => fun c => dat11 (V12 m) c
  | ⟨12, _⟩ => fun c => dat12 (V13 m) c
  | ⟨13, _⟩ => fun c => dat13 (V15 m) c

/-- What regOf needs of the proof data, for the fourteen regions at once: each case holds by unfolding. -/
theorem pdats_plain (p : Fin 14) (c : Dev nD) :
    (∀ w, (pdats m p c).A w = Wat m p c (Proc.devRef .tc (Pipeline.arrRef (cfgs p).spec w))) ∧ (∀ w, (pdats m p c).q w = fullShare)
      ∧ (∀ t, (pdats m p c).owed t = 0) ∧ (∀ t, (pdats m p c).recorded t = Set.univ) ∧ ∀ i, (pdats m p c).Φ i = Pipeline.ΦA (cfgs p).spec c := by
  fin_cases p <;> exact ⟨fun _ => rfl, fun _ => rfl, fun _ => rfl, fun _ => rfl, fun _ => rfl⟩

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m c) ∗ ∃ r, prngReg c r)

set_option backward.isDefEq.respectTransparency.types false in
/-- Region p as a segment of the run, from the contents it is entered with to the contents it leaves. -/
def regOf (p : Fin 14) (lf : Pipeline.LaunchFacts (nD := nD) (τ := τ) cfgs p)
    (hb : ∀ c, BodyObligation (pdats m p c) (defs₀ (F := F)) Variants.none () Set.univ) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.2.1
  pre c := iprop(StableHlo.held (c : Thread nD τ) (Pipeline.ucRefs τ sig) (Wat m p c) ∗ R c)
  post c := iprop(StableHlo.held (c : Thread nD τ) (Pipeline.ucRefs τ sig) (next c (pdats m p c) (Wat m p c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wat m p c b)
  hentry c := by
    obtain ⟨hA, hq, howed, hrec, -⟩ := pdats_plain m p c
    rw [Pipeline.ownSems0_none]
    have hsplit := Pipeline.arrays_of_unscopedBufs (p := p) (pcfgs (F := F)) adm (pdats m) lf.win lf.arr_whole c
      ((pdats m p c).share_full hq) (fun b => Wat m p c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitl [Hp]; · iexact Hp
    iexact Hrest
  hin c := by
    rw [(pdats_plain m p c).2.2.2.2]; unfold Pipeline.ΦA
    iintro ⟨Hp, -, Hr⟩
    isplitl [Hr]; · iexact Hr
    iexact Hp
  hout c := by
    rw [Pipeline.ownSems0_none, (pdats_plain m p c).2.2.2.2]; unfold Pipeline.ΦA
    iintro ⟨Hr, Hp⟩
    isplitl [Hp]; · iexact Hp
    isplitr; · iempintro
    iexact Hr
  hexit c := by
    obtain ⟨-, hq, howed, -, -⟩ := pdats_plain m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq)
      (fun b => Wat m p c b) (fun b => next c (pdats m p c) (Wat m p c) b) ((pdats m p c).arrAt · (cfgs p).N)
      (fun w => (next_arr c _ _ lf w).symm)
      (fun b hb => next_of_ne c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

abbrev reg0 := regOf m 0 launch0 (body_obligation0 (V0 m))
abbrev reg1 := regOf m 1 launch1 (body_obligation1 (V1 m))
abbrev reg2 := regOf m 2 launch2 (body_obligation2 (V2 m))
abbrev reg3 := regOf m 3 launch3 (body_obligation3 (V3 m))
abbrev reg4 := regOf m 4 launch4 (body_obligation4 (V4 m))
abbrev reg5 := regOf m 5 launch5 (body_obligation5 (V5 m))
abbrev reg6 := regOf m 6 launch6 (body_obligation6 (V6 m))
abbrev reg7 := regOf m 7 launch7 (body_obligation7 (V8 m))
abbrev reg8 := regOf m 8 launch8 (body_obligation8 (V9 m))
abbrev reg9 := regOf m 9 launch9 (body_obligation9 (V10 m))
abbrev reg10 := regOf m 10 launch10 (body_obligation10 (V11 m))
abbrev reg11 := regOf m 11 launch11 (body_obligation11 (V12 m))
abbrev reg12 := regOf m 12 launch12 (body_obligation12 (V13 m))
abbrev reg13 := regOf m 13 launch13 (body_obligation13 (V15 m))

end Cert.Kernel.Fr

end
-- ==== Proof.K.Run.lean ====
import proofs.«110190_j59090160058610_1_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev H7 : Pipeline.HostSeg (Name := ℕ) (U := UR sig nD τ) (pcfgs (F := F)) defs₀ 𝒱₀ L lv := hseg hostOps7 hostOps7_sub hostOps7_fresh (W7 m)
abbrev H13 : Pipeline.HostSeg (Name := ℕ) (U := UR sig nD τ) (pcfgs (F := F)) defs₀ 𝒱₀ L lv := hseg hostOps13 hostOps13_sub hostOps13_fresh (W14 m)

/-- @main's sixteen items in order: fourteen regions and two host stretches. -/
abbrev segs : List (Pipeline.Seg (pcfgs (F := F)) adm (pdats m) () defs₀ 𝒱₀ L lv) :=
  [.region (reg0 m), .region (reg1 m), .region (reg2 m), .region (reg3 m), .region (reg4 m), .region (reg5 m), .region (reg6 m),
    .host (H7 m), .region (reg7 m), .region (reg8 m), .region (reg9 m), .region (reg10 m), .region (reg11 m), .region (reg12 m),
    .host (H13 m), .region (reg13 m)]

theorem main_run (c : Dev nD) : main (F := F) c = Pipeline.Seg.run (segs m) :=
  main_segs adm (pdats m) () 𝒱₀ L lv (H7 m) (H13 m) (reg0 m) (reg1 m) (reg2 m) (reg3 m) (reg4 m) (reg5 m) (reg6 m) (reg7 m) (reg8 m) (reg9 m) (reg10 m) (reg11 m) (reg12 m) (reg13 m) rfl rfl c

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- The buffers @main's items write. -/
abbrev produced : List (Ref sig .tc) :=
  [main_v0, main_v1, main_v2, main_v3, main_v4, main_v5, main_v6, main_v7, main_v8, main_v9, main_v10, main_v11, main_v12, main_v13, main_v14, main_v15, main_v16]

/-- Each item keeps every buffer but its own result. -/
theorem W16_of_not_produced (c : Dev nD) (b : Ref sig .tc) (hb : b ∉ produced) :
    W16 m c (Proc.devRef .tc b) = m ((c : Thread nD τ).loc b) :=
  have ne {x : Ref sig .tc} (hx : x ∈ produced) : b ≠ x := fun e => hb (e ▸ hx)
  (W16_keep m c b (ne (by decide))).trans <|
    (W15_keep m c b fun h => hb ((by decide : hostOps13_W ⊆ produced) h)).trans <|
    (W14_keep m c b (ne (by decide))).trans <|
    (W13_keep m c b (ne (by decide))).trans <|
    (W12_keep m c b (ne (by decide))).trans <|
    (W11_keep m c b (ne (by decide))).trans <|
    (W10_keep m c b (ne (by decide))).trans <|
    (W9_keep m c b (ne (by decide))).trans <|
    (W8_keep m c b fun h => hb ((by decide : hostOps7_W ⊆ produced) h)).trans <|
    (W7_keep m c b (ne (by decide))).trans <|
    (W6_keep m c b (ne (by decide))).trans <|
    (W5_keep m c b (ne (by decide))).trans <|
    (W4_keep m c b (ne (by decide))).trans <|
    (W3_keep m c b (ne (by decide))).trans <|
    (W2_keep m c b (ne (by decide))).trans <|
    (W1_keep m c b (ne (by decide))).trans <| rfl

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W16_of_not_produced m c main_arg0 (by decide)),
      (h c _ (mem_uc main_arg1 (by decide))).trans (W16_of_not_produced m c main_arg1 (by decide)),
      (h c _ (mem_uc main_arg2 (by decide))).trans (W16_of_not_produced m c main_arg2 (by decide)),
      (h c _ (mem_uc main_arg3 (by decide))).trans (W16_of_not_produced m c main_arg3 (by decide)),
      (h c _ (mem_uc main_arg4 (by decide))).trans (W16_of_not_produced m c main_arg4 (by decide)),
      (h c _ (mem_uc main_arg5 (by decide))).trans (W16_of_not_produced m c main_arg5 (by decide)),
      (h c _ (mem_uc main_arg6 (by decide))).trans (W16_of_not_produced m c main_arg6 (by decide)),
      (h c _ (mem_uc main_arg7 (by decide))).trans (W16_of_not_produced m c main_arg7 (by decide)),
      (h c _ (mem_uc main_arg8 (by decide))).trans (W16_of_not_produced m c main_arg8 (by decide)),
      (h c _ (mem_uc main_arg9 (by decide))).trans (W16_of_not_produced m c main_arg9 (by decide))⟩) (run_all m ρ)

end Cert.Kernel.Fr

end
-- ==== Proof.KI.Reg0.lean ====
import proofs.«110190_j59090160058610_1_alg».proof.Proof.Gen.KernelIdeal.Launch
import proofs.«110190_j59090160058610_1_alg».proof.Proof.Gen.KernelIdeal.Skeleton
import proofs.«110190_j59090160058610_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S200x10000 := Rect.unit (s := S200x10000) ![0, 0] S200x10000.size inb_S200x10000_S200x10000_0_0

def out0_1 (x0 : Vec F S200x10000 .f32) : Vec F S200x10000 .bf16 :=
  View.canon [⟨r0_a, k0_pay1 (View.ld x0 r0_a)⟩]

theorem cover0_1 (p0 : Vec F S200x10000 .bf16) (y : S200x10000.Idx) :
    ∃ pc ∈ ([⟨r0_a, p0⟩] : List (View.Piece (Elt F) S200x10000 .bf16)), y ∈ pc.1.set :=
  View.cover_of_tiled [⟨r0_a, p0⟩] S200x10000.size (by rfl) y

set_option maxHeartbeats 1000000 in
theorem sound_kernel0 (c : Dev nD) (E : Set ℕ) (i : grid0.Coords)
    (arg1 : Memref sig .tc .vmem S200x10000 .f32) (harg1 : arg1.IsWhole)
    (arg2 : Memref sig .tc .vmem S200x10000 .bf16) (harg2 : arg2.IsWhole)
    (x0 : Vec F S200x10000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_bf16_kernel i arg1 harg1 arg2 harg2) K := by
  simp only [cc0__cast_bf16_kernel_eq_skeleton]; unfold cc0__cast_bf16_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«110190_j59090160058610_1_alg».proof.Proof.Gen.KernelIdeal.Launch
import proofs.«110190_j59090160058610_1_alg».proof.Proof.Gen.KernelIdeal.Skeleton
import proofs.«110190_j59090160058610_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S400x500 := Rect.unit (s := S400x500) ![0, 0] S400x500.size inb_S400x500_S400x500_0_0
abbrev r1_b : Rect S500x400 := Rect.unit (s := S500x400) ![0, 0] S500x400.size inb_S500x400_S500x400_0_0
abbrev r1_o : Rect S400x400 := Rect.unit (s := S400x400) ![0, 0] S400x400.size inb_S400x400_S400x400_0_0

def out1_2 (x0 : Vec F S400x500 .f32) (x1 : Vec F S500x400 .f32) : Vec F S400x400 .bf16 :=
  View.canon [⟨r1_o, k1_pay1 (View.ld x0 r1_a) (View.ld x1 r1_b)⟩]

theorem cover1_2 (p0 : Vec F S400x400 .bf16) (y : S400x400.Idx) :
    ∃ pc ∈ ([⟨r1_o, p0⟩] : List (View.Piece (Elt F) S400x400 .bf16)), y ∈ pc.1.set :=
  View.cover_of_tiled [⟨r1_o, p0⟩] S400x400.size (by rfl) y

set_option maxHeartbeats 1000000 in
theorem sound_kernel1 (c : Dev nD) (E : Set ℕ) (i : grid1.Coords)
    (arg1 : Memref sig .tc .vmem S400x500 .f32) (harg1 : arg1.IsWhole)
    (arg2 : Memref sig .tc .vmem S500x400 .f32) (harg2 : arg2.IsWhole)
    (arg3 : Memref sig .tc .vmem S400x400 .bf16) (harg3 : arg3.IsWhole)
    (x0 : Vec F S400x500 .f32) (x1 : Vec F S500x400 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«110190_j59090160058610_1_alg».proof.Proof.KI.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem cc2_eq : cc2_kernel (F := F) = cc1_kernel := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out1_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out1_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  rw [cc2_eq]
  iintro ⟨HΦ, Ho, ⟨%d0, H0⟩, ⟨%d1, H1⟩, ⟨%d2, H2⟩⟩
  iapply (sound_kernel1 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
import proofs.«110190_j59090160058610_1_alg».proof.Proof.Gen.KernelIdeal.Launch
import proofs.«110190_j59090160058610_1_alg».proof.Proof.Gen.KernelIdeal.Skeleton
import proofs.«110190_j59090160058610_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S200x10000 := Rect.unit (s := S200x10000) ![0, 0] S200x10000.size inb_S200x10000_S200x10000_0_0
abbrev r3_b : Rect S10000x400 := Rect.unit (s := S10000x400) ![0, 0] S10000x400.size inb_S10000x400_S10000x400_0_0
abbrev r3_o : Rect S200x400 := Rect.unit (s := S200x400) ![0, 0] S200x400.size inb_S200x400_S200x400_0_0

def out3_2 (x0 : Vec F S200x10000 .bf16) (x1 : Vec F S10000x400 .bf16) : Vec F S200x400 .bf16 :=
  View.canon [⟨r3_o, k3_pay1 (View.ld x0 r3_a) (View.ld x1 r3_b)⟩]

theorem cover3_2 (p0 : Vec F S200x400 .bf16) (y : S200x400.Idx) :
    ∃ pc ∈ ([⟨r3_o, p0⟩] : List (View.Piece (Elt F) S200x400 .bf16)), y ∈ pc.1.set :=
  View.cover_of_tiled [⟨r3_o, p0⟩] S200x400.size (by rfl) y

set_option maxHeartbeats 1000000 in
theorem sound_kernel3 (c : Dev nD) (E : Set ℕ) (i : grid3.Coords)
    (arg1 : Memref sig .tc .vmem S200x10000 .bf16) (harg1 : arg1.IsWhole)
    (arg2 : Memref sig .tc .vmem S10000x400 .bf16) (harg2 : arg2.IsWhole)
    (arg3 : Memref sig .tc .vmem S200x400 .bf16) (harg3 : arg3.IsWhole)
    (x0 : Vec F S200x10000 .bf16) (x1 : Vec F S10000x400 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
import proofs.«110190_j59090160058610_1_alg».proof.Proof.KI.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cc4_eq : cc4_kernel (F := F) = cc1_kernel := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out1_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out1_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  rw [cc4_eq]
  iintro ⟨HΦ, Ho, ⟨%d0, H0⟩, ⟨%d1, H1⟩, ⟨%d2, H2⟩⟩
  iapply (sound_kernel1 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Reg5.lean ====
import proofs.«110190_j59090160058610_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cc5_eq : cc5_kernel (F := F) = cc3_kernel := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out3_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out3_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  rw [cc5_eq]
  iintro ⟨HΦ, Ho, ⟨%d0, H0⟩, ⟨%d1, H1⟩, ⟨%d2, H2⟩⟩
  iapply (sound_kernel3 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Reg6.lean ====
import proofs.«110190_j59090160058610_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem cc6_eq : cc6_kernel (F := F) = cc3_kernel := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out3_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out3_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  rw [cc6_eq]
  iintro ⟨HΦ, Ho, ⟨%d0, H0⟩, ⟨%d1, H1⟩, ⟨%d2, H2⟩⟩
  iapply (sound_kernel3 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Reg7.lean ====
import proofs.«110190_j59090160058610_1_alg».proof.Proof.Gen.KernelIdeal.Launch
import proofs.«110190_j59090160058610_1_alg».proof.Proof.Gen.KernelIdeal.Skeleton
import proofs.«110190_j59090160058610_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S400x1200 := Rect.unit (s := S400x1200) ![0, 0] S400x1200.size inb_S400x1200_S400x1200_0_0
abbrev r7_b : Rect S1200x400 := Rect.unit (s := S1200x400) ![0, 0] S1200x400.size inb_S1200x400_S1200x400_0_0
abbrev r7_o : Rect S400x400 := Rect.unit (s := S400x400) ![0, 0] S400x400.size inb_S400x400_S400x400_0_0

def out7_2 (x0 : Vec F S400x1200 .bf16) (x1 : Vec F S1200x400 .f32) : Vec F S400x400 .bf16 :=
  View.canon [⟨r7_o, k7_pay1 (View.ld x0 r7_a) (View.ld x1 r7_b)⟩]

theorem cover7_2 (p0 : Vec F S400x400 .bf16) (y : S400x400.Idx) :
    ∃ pc ∈ ([⟨r7_o, p0⟩] : List (View.Piece (Elt F) S400x400 .bf16)), y ∈ pc.1.set :=
  View.cover_of_tiled [⟨r7_o, p0⟩] S400x400.size (by rfl) y

set_option maxHeartbeats 1000000 in
theorem sound_kernel7 (c : Dev nD) (E : Set ℕ) (i : grid7.Coords)
    (arg1 : Memref sig .tc .vmem S400x1200 .bf16) (harg1 : arg1.IsWhole)
    (arg2 : Memref sig .tc .vmem S1200x400 .f32) (harg2 : arg2.IsWhole)
    (arg3 : Memref sig .tc .vmem S400x400 .bf16) (harg3 : arg3.IsWhole)
    (x0 : Vec F S400x1200 .bf16) (x1 : Vec F S1200x400 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Reg8.lean ====
import proofs.«110190_j59090160058610_1_alg».proof.Proof.KI.Reg7

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem cc8_eq : cc8_kernel (F := F) = cc7_kernel := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out7_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out7_2 (iblk8 V c 0 t) (iblk8 V c 1 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  rw [cc8_eq]
  iintro ⟨HΦ, Ho, ⟨%d0, H0⟩, ⟨%d1, H1⟩, ⟨%d2, H2⟩⟩
  iapply (sound_kernel7 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.Reg9.lean ====
import proofs.«110190_j59090160058610_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem cc9_eq : cc9_kernel (F := F) = cc3_kernel := rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out3_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out3_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  rw [cc9_eq]
  iintro ⟨HΦ, Ho, ⟨%d0, H0⟩, ⟨%d1, H1⟩, ⟨%d2, H2⟩⟩
  iapply (sound_kernel3 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.Reg10.lean ====
import proofs.«110190_j59090160058610_1_alg».proof.Proof.KI.Reg7

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem cc10_eq : cc10_kernel (F := F) = cc7_kernel := rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out7_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out7_2 (iblk10 V c 0 t) (iblk10 V c 1 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  rw [cc10_eq]
  iintro ⟨HΦ, Ho, ⟨%d0, H0⟩, ⟨%d1, H1⟩, ⟨%d2, H2⟩⟩
  iapply (sound_kernel7 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.Reg11.lean ====
import proofs.«110190_j59090160058610_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem cc11_eq : cc11_kernel (F := F) = cc3_kernel := rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out3_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out3_2 (iblk11 V c 0 t) (iblk11 V c 1 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  rw [cc11_eq]
  iintro ⟨HΦ, Ho, ⟨%d0, H0⟩, ⟨%d1, H1⟩, ⟨%d2, H2⟩⟩
  iapply (sound_kernel3 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.Reg12.lean ====
import proofs.«110190_j59090160058610_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem cc12_eq : cc12_kernel (F := F) = cc3_kernel := rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out3_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out3_2 (iblk12 V c 0 t) (iblk12 V c 1 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  rw [cc12_eq]
  iintro ⟨HΦ, Ho, ⟨%d0, H0⟩, ⟨%d1, H1⟩, ⟨%d2, H2⟩⟩
  iapply (sound_kernel3 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

end Cert.KernelIdeal.Fr

end
-- ==== Proof.KI.Reg13.lean ====
import proofs.«110190_j59090160058610_1_alg».proof.Proof.Gen.KernelIdeal.Launch
import proofs.«110190_j59090160058610_1_alg».proof.Proof.Gen.KernelIdeal.Skeleton
import proofs.«110190_j59090160058610_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_a : Rect S400x1200 := Rect.unit (s := S400x1200) ![0, 0] S400x1200.size inb_S400x1200_S400x1200_0_0
abbrev r13_b : Rect S1200x1200 := Rect.unit (s := S1200x1200) ![0, 0] S1200x1200.size inb_S1200x1200_S1200x1200_0_0
abbrev r13_v : Rect S1x1200 := Rect.unit (s := S1x1200) ![0, 0] S1x1200.size inb_S1x1200_S1x1200_0_0

def out13_3 (x0 : Vec F S400x1200 .bf16) (x1 : Vec F S1200x1200 .f32) (x2 : Vec F S1x1200 .f32) : Vec F S400x1200 .f32 :=
  View.canon [⟨r13_a, k13_pay1 (View.ld x0 r13_a) (View.ld x1 r13_b) (View.ld x2 r13_v)⟩]

theorem cover13_3 (p0 : Vec F S400x1200 .f32) (y : S400x1200.Idx) :
    ∃ pc ∈ ([⟨r13_a, p0⟩] : List (View.Piece (Elt F) S400x1200 .f32)), y ∈ pc.1.set :=
  View.cover_of_tiled [⟨r13_a, p0⟩] S400x1200.size (by rfl) y

set_option maxHeartbeats 1000000 in
theorem sound_kernel13 (c : Dev nD) (E : Set ℕ) (i : grid13.Coords)
    (arg1 : Memref sig .tc .vmem S400x1200 .bf16) (harg1 : arg1.IsWhole)
    (arg2 : Memref sig .tc .vmem S1200x1200 .f32) (harg2 : arg2.IsWhole)
    (arg3 : Memref sig .tc .vmem S1x1200 .f32) (harg3 : arg3.IsWhole)
    (arg4 : Memref sig .tc .vmem S400x1200 .f32) (harg4 : arg4.IsWhole)
    (x0 : Vec F S400x1200 .bf16) (x1 : Vec F S1200x1200 .f32) (x2 : Vec F S1x1200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__matmul_bias_relu_kernel i arg1 harg1 arg2 harg2 arg3 harg3 arg4 harg4) K := by
  simp only [cc13__matmul_bias_relu_kernel_eq_skeleton]; unfold cc13__matmul_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation13 (c : Dev nD) : BodyObligation (dat13 (F := F) V c) (defs₀ (F := F)) Variants.none () Set.univ := fun t => by
  rw [bigSep_W13, bigSep_W13]
  exact sound_body13 V c t

end Cert.KernelIdeal.Fr

end
-- ==== Proof.KI.Fold.lean ====
import proofs.«110190_j59090160058610_1_alg».proof.Proof.KI.Reg0
import proofs.«110190_j59090160058610_1_alg».proof.Proof.KI.Reg1
import proofs.«110190_j59090160058610_1_alg».proof.Proof.KI.Reg2
import proofs.«110190_j59090160058610_1_alg».proof.Proof.KI.Reg3
import proofs.«110190_j59090160058610_1_alg».proof.Proof.KI.Reg4
import proofs.«110190_j59090160058610_1_alg».proof.Proof.KI.Reg5
import proofs.«110190_j59090160058610_1_alg».proof.Proof.KI.Reg6
import proofs.«110190_j59090160058610_1_alg».proof.Proof.KI.Reg7
import proofs.«110190_j59090160058610_1_alg».proof.Proof.KI.Reg8
import proofs.«110190_j59090160058610_1_alg».proof.Proof.KI.Reg9
import proofs.«110190_j59090160058610_1_alg».proof.Proof.KI.Reg10
import proofs.«110190_j59090160058610_1_alg».proof.Proof.KI.Reg11
import proofs.«110190_j59090160058610_1_alg».proof.Proof.KI.Reg12
import proofs.«110190_j59090160058610_1_alg».proof.Proof.KI.Reg13
import proofs.«110190_j59090160058610_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable {p : Fin 14} (c : Dev nD)
  (d : Dat τ (Elt F) Unit ℕ (UR sig nD τ) ℕ (cfgs p) c) (W : Valuation τ sig (Elt F))

/-- The buffers after region p entered at W: its windows' arrays at their final contents, every other buffer as entered. -/
def next : Valuation τ sig (Elt F) := Pipeline.withArrays (cfgs p).spec c W fun w => d.arrAt w (cfgs p).N

theorem next_arr (lf : Pipeline.LaunchFacts (nD := nD) (τ := τ) cfgs p) (w : Fin (cfgs p).W) : next c d W (Proc.devRef .tc (Pipeline.arrRef (cfgs p).spec w)) = d.arrAt w (cfgs p).N :=
  Pipeline.withArrays_arr _ lf.win.arr_inj c _ _ w

theorem next_of_ne (b : Ref sig .tc) (hb : ∀ w, Pipeline.arrRef (cfgs p).spec w ≠ b) : next c d W (Proc.devRef .tc b) = W (Proc.devRef .tc b) :=
  Pipeline.withArrays_of_ne _ c _ _ b hb

/-- An input window's array is left as found, and a buffer that is no window's array is not touched. -/
theorem next_keep (lf : Pipeline.LaunchFacts (nD := nD) (τ := τ) cfgs p) (hA : ∀ w, d.A w = W (Proc.devRef .tc (Pipeline.arrRef (cfgs p).spec w))) (o : Ref sig .tc)
    (hio : ∀ w, Pipeline.arrRef (cfgs p).spec w ≠ o → ((cfgs p).win w).isOut = false) (b : Ref sig .tc) (hb : b ≠ o) :
    next c d W (Proc.devRef .tc b) = W (Proc.devRef .tc b) := by
  by_cases h : ∃ w, Pipeline.arrRef (cfgs p).spec w = b
  · obtain ⟨w, rfl⟩ := h
    exact (next_arr c d W lf w).trans ((d.arrAt_in w (hio w hb) _).trans (hA w))
  · exact next_of_ne c d W b fun w e => h ⟨w, e⟩
end

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) := next (p := 0) c (dat0 (V0 m) c) (W0 m c)
abbrev V1 : (c : Dev nD) → (b : Ref sig .tc) → Buf (Elt F) ((c : Thread nD τ).loc b) := fun c b => W1 m c b
theorem W1_keep (c : Dev nD) (b : Ref sig .tc) (hb : b ≠ main_v0) : W1 m c (Proc.devRef .tc b) = W0 m c (Proc.devRef .tc b) :=
  next_keep c _ _ launch0 (fun _ => rfl) main_v0 (by decide) b hb
theorem W1_result (c : Dev nD) : W1 m c (Proc.devRef .tc main_v0) = (dat0 (V0 m) c).arrAt 1 cfg0.N := next_arr c _ _ launch0 1

def W2 (c : Dev nD) : Valuation τ sig (Elt F) := next (p := 1) c (dat1 (V1 m) c) (W1 m c)
abbrev V2 : (c : Dev nD) → (b : Ref sig .tc) → Buf (Elt F) ((c : Thread nD τ).loc b) := fun c b => W2 m c b
theorem W2_keep (c : Dev nD) (b : Ref sig .tc) (hb : b ≠ main_v1) : W2 m c (Proc.devRef .tc b) = W1 m c (Proc.devRef .tc b) :=
  next_keep c _ _ launch1 (fun _ => rfl) main_v1 (by decide) b hb
theorem W2_result (c : Dev nD) : W2 m c (Proc.devRef .tc main_v1) = (dat1 (V1 m) c).arrAt 2 cfg1.N := next_arr c _ _ launch1 2

def W3 (c : Dev nD) : Valuation τ sig (Elt F) := next (p := 2) c (dat2 (V2 m) c) (W2 m c)
abbrev V3 : (c : Dev nD) → (b : Ref sig .tc) → Buf (Elt F) ((c : Thread nD τ).loc b) := fun c b => W3 m c b
theorem W3_keep (c : Dev nD) (b : Ref sig .tc) (hb : b ≠ main_v2) : W3 m c (Proc.devRef .tc b) = W2 m c (Proc.devRef .tc b) :=
  next_keep c _ _ launch2 (fun _ => rfl) main_v2 (by decide) b hb
theorem W3_result (c : Dev nD) : W3 m c (Proc.devRef .tc main_v2) = (dat2 (V2 m) c).arrAt 2 cfg2.N := next_arr c _ _ launch2 2

def W4 (c : Dev nD) : Valuation τ sig (Elt F) := next (p := 3) c (dat3 (V3 m) c) (W3 m c)
abbrev V4 : (c : Dev nD) → (b : Ref sig .tc) → Buf (Elt F) ((c : Thread nD τ).loc b) := fun c b => W4 m c b
theorem W4_keep (c : Dev nD) (b : Ref sig .tc) (hb : b ≠ main_v3) : W4 m c (Proc.devRef .tc b) = W3 m c (Proc.devRef .tc b) :=
  next_keep c _ _ launch3 (fun _ => rfl) main_v3 (by decide) b hb
theorem W4_result (c : Dev nD) : W4 m c (Proc.devRef .tc main_v3) = (dat3 (V3 m) c).arrAt 2 cfg3.N := next_arr c _ _ launch3 2

def W5 (c : Dev nD) : Valuation τ sig (Elt F) := next (p := 4) c (dat4 (V4 m) c) (W4 m c)
abbrev V5 : (c : Dev nD) → (b : Ref sig .tc) → Buf (Elt F) ((c : Thread nD τ).loc b) := fun c b => W5 m c b
theorem W5_keep (c : Dev nD) (b : Ref sig .tc) (hb : b ≠ main_v4) : W5 m c (Proc.devRef .tc b) = W4 m c (Proc.devRef .tc b) :=
  next_keep c _ _ launch4 (fun _ => rfl) main_v4 (by decide) b hb
theorem W5_result (c : Dev nD) : W5 m c (Proc.devRef .tc main_v4) = (dat4 (V4 m) c).arrAt 2 cfg4.N := next_arr c _ _ launch4 2

def W6 (c : Dev nD) : Valuation τ sig (Elt F) := next (p := 5) c (dat5 (V5 m) c) (W5 m c)
abbrev V6 : (c : Dev nD) → (b : Ref sig .tc) → Buf (Elt F) ((c : Thread nD τ).loc b) := fun c b => W6 m c b
theorem W6_keep (c : Dev nD) (b : Ref sig .tc) (hb : b ≠ main_v5) : W6 m c (Proc.devRef .tc b) = W5 m c (Proc.devRef .tc b) :=
  next_keep c _ _ launch5 (fun _ => rfl) main_v5 (by decide) b hb
theorem W6_result (c : Dev nD) : W6 m c (Proc.devRef .tc main_v5) = (dat5 (V5 m) c).arrAt 2 cfg5.N := next_arr c _ _ launch5 2

def W7 (c : Dev nD) : Valuation τ sig (Elt F) := next (p := 6) c (dat6 (V6 m) c) (W6 m c)
abbrev V7 : (c : Dev nD) → (b : Ref sig .tc) → Buf (Elt F) ((c : Thread nD τ).loc b) := fun c b => W7 m c b
theorem W7_keep (c : Dev nD) (b : Ref sig .tc) (hb : b ≠ main_v6) : W7 m c (Proc.devRef .tc b) = W6 m c (Proc.devRef .tc b) :=
  next_keep c _ _ launch6 (fun _ => rfl) main_v6 (by decide) b hb
theorem W7_result (c : Dev nD) : W7 m c (Proc.devRef .tc main_v6) = (dat6 (V6 m) c).arrAt 2 cfg6.N := next_arr c _ _ launch6 2

abbrev W8 : Dev nD → Valuation τ sig (Elt F) := fun c => StableHlo.after hostOps7 (W7 m c)
abbrev V8 : (c : Dev nD) → (b : Ref sig .tc) → Buf (Elt F) ((c : Thread nD τ).loc b) := fun c b => W8 m c b
theorem W8_keep (c : Dev nD) (b : Ref sig .tc) (hb : b ∉ hostOps7_W) : W8 m c (Proc.devRef .tc b) = W7 m c (Proc.devRef .tc b) :=
  StableHlo.after_of_writes_sub hostOps7 _ hostOps7_writes hb

def W9 (c : Dev nD) : Valuation τ sig (Elt F) := next (p := 7) c (dat7 (V8 m) c) (W8 m c)
abbrev V9 : (c : Dev nD) → (b : Ref sig .tc) → Buf (Elt F) ((c : Thread nD τ).loc b) := fun c b => W9 m c b
theorem W9_keep (c : Dev nD) (b : Ref sig .tc) (hb : b ≠ main_v8) : W9 m c (Proc.devRef .tc b) = W8 m c (Proc.devRef .tc b) :=
  next_keep c _ _ launch7 (fun _ => rfl) main_v8 (by decide) b hb
theorem W9_result (c : Dev nD) : W9 m c (Proc.devRef .tc main_v8) = (dat7 (V8 m) c).arrAt 2 cfg7.N := next_arr c _ _ launch7 2

def W10 (c : Dev nD) : Valuation τ sig (Elt F) := next (p := 8) c (dat8 (V9 m) c) (W9 m c)
abbrev V10 : (c : Dev nD) → (b : Ref sig .tc) → Buf (Elt F) ((c : Thread nD τ).loc b) := fun c b => W10 m c b
theorem W10_keep (c : Dev nD) (b : Ref sig .tc) (hb : b ≠ main_v9) : W10 m c (Proc.devRef .tc b) = W9 m c (Proc.devRef .tc b) :=
  next_keep c _ _ launch8 (fun _ => rfl) main_v9 (by decide) b hb
theorem W10_result (c : Dev nD) : W10 m c (Proc.devRef .tc main_v9) = (dat8 (V9 m) c).arrAt 2 cfg8.N := next_arr c _ _ launch8 2

def W11 (c : Dev nD) : Valuation τ sig (Elt F) := next (p := 9) c (dat9 (V10 m) c) (W10 m c)
abbrev V11 : (c : Dev nD) → (b : Ref sig .tc) → Buf (Elt F) ((c : Thread nD τ).loc b) := fun c b => W11 m c b
theorem W11_keep (c : Dev nD) (b : Ref sig .tc) (hb : b ≠ main_v10) : W11 m c (Proc.devRef .tc b) = W10 m c (Proc.devRef .tc b) :=
  next_keep c _ _ launch9 (fun _ => rfl) main_v10 (by decide) b hb
theorem W11_result (c : Dev nD) : W11 m c (Proc.devRef .tc main_v10) = (dat9 (V10 m) c).arrAt 2 cfg9.N := next_arr c _ _ launch9 2

def W12 (c : Dev nD) : Valuation τ sig (Elt F) := next (p := 10) c (dat10 (V11 m) c) (W11 m c)
abbrev V12 : (c : Dev nD) → (b : Ref sig .tc) → Buf (Elt F) ((c : Thread nD τ).loc b) := fun c b => W12 m c b
theorem W12_keep (c : Dev nD) (b : Ref sig .tc) (hb : b ≠ main_v11) : W12 m c (Proc.devRef .tc b) = W11 m c (Proc.devRef .tc b) :=
  next_keep c _ _ launch10 (fun _ => rfl) main_v11 (by decide) b hb
theorem W12_result (c : Dev nD) : W12 m c (Proc.devRef .tc main_v11) = (dat10 (V11 m) c).arrAt 2 cfg10.N := next_arr c _ _ launch10 2

def W13 (c : Dev nD) : Valuation τ sig (Elt F) := next (p := 11) c (dat11 (V12 m) c) (W12 m c)
abbrev V13 : (c : Dev nD) → (b : Ref sig .tc) → Buf (Elt F) ((c : Thread nD τ).loc b) := fun c b => W13 m c b
theorem W13_keep (c : Dev nD) (b : Ref sig .tc) (hb : b ≠ main_v12) : W13 m c (Proc.devRef .tc b) = W12 m c (Proc.devRef .tc b) :=
  next_keep c _ _ launch11 (fun _ => rfl) main_v12 (by decide) b hb
theorem W13_result (c : Dev nD) : W13 m c (Proc.devRef .tc main_v12) = (dat11 (V12 m) c).arrAt 2 cfg11.N := next_arr c _ _ launch11 2

def W14 (c : Dev nD) : Valuation τ sig (Elt F) := next (p := 12) c (dat12 (V13 m) c) (W13 m c)
abbrev V14 : (c : Dev nD) → (b : Ref sig .tc) → Buf (Elt F) ((c : Thread nD τ).loc b) := fun c b => W14 m c b
theorem W14_keep (c : Dev nD) (b : Ref sig .tc) (hb : b ≠ main_v13) : W14 m c (Proc.devRef .tc b) = W13 m c (Proc.devRef .tc b) :=
  next_keep c _ _ launch12 (fun _ => rfl) main_v13 (by decide) b hb
theorem W14_result (c : Dev nD) : W14 m c (Proc.devRef .tc main_v13) = (dat12 (V13 m) c).arrAt 2 cfg12.N := next_arr c _ _ launch12 2

abbrev W15 : Dev nD → Valuation τ sig (Elt F) := fun c => StableHlo.after hostOps13 (W14 m c)
abbrev V15 : (c : Dev nD) → (b : Ref sig .tc) → Buf (Elt F) ((c : Thread nD τ).loc b) := fun c b => W15 m c b
theorem W15_keep (c : Dev nD) (b : Ref sig .tc) (hb : b ∉ hostOps13_W) : W15 m c (Proc.devRef .tc b) = W14 m c (Proc.devRef .tc b) :=
  StableHlo.after_of_writes_sub hostOps13 _ hostOps13_writes hb

def W16 (c : Dev nD) : Valuation τ sig (Elt F) := next (p := 13) c (dat13 (V15 m) c) (W15 m c)
abbrev V16 : (c : Dev nD) → (b : Ref sig .tc) → Buf (Elt F) ((c : Thread nD τ).loc b) := fun c b => W16 m c b
theorem W16_keep (c : Dev nD) (b : Ref sig .tc) (hb : b ≠ main_v16) : W16 m c (Proc.devRef .tc b) = W15 m c (Proc.devRef .tc b) :=
  next_keep c _ _ launch13 (fun _ => rfl) main_v16 (by decide) b hb
theorem W16_result (c : Dev nD) : W16 m c (Proc.devRef .tc main_v16) = (dat13 (V15 m) c).arrAt 3 cfg13.N := next_arr c _ _ launch13 3

end Cert.KernelIdeal.Fr

end
-- ==== Proof.KI.Data.lean ====
import proofs.«110190_j59090160058610_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents each region is entered with. -/
def Wat : Fin 14 → Dev nD → Valuation τ sig (Elt F)
  | ⟨0, _⟩ => W0 m
  | ⟨1, _⟩ => W1 m
  | ⟨2, _⟩ => W2 m
  | ⟨3, _⟩ => W3 m
  | ⟨4, _⟩ => W4 m
  | ⟨5, _⟩ => W5 m
  | ⟨6, _⟩ => W6 m
  | ⟨7, _⟩ => W8 m
  | ⟨8, _⟩ => W9 m
  | ⟨9, _⟩ => W10 m
  | ⟨10, _⟩ => W11 m
  | ⟨11, _⟩ => W12 m
  | ⟨12, _⟩ => W13 m
  | ⟨13, _⟩ => W15 m

/-- Each region's proof data, at the contents the region is entered with. -/
def pdats : (p : Fin 14) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
  | ⟨5, _⟩ => fun c => dat5 (V5 m) c
  | ⟨6, _⟩ => fun c => dat6 (V6 m) c
  | ⟨7, _⟩ => fun c => dat7 (V8 m) c
  | ⟨8, _⟩ => fun c => dat8 (V9 m) c
  | ⟨9, _⟩ => fun c => dat9 (V10 m) c
  | ⟨10, _⟩ => fun c => dat10 (V11 m) c
  | ⟨11, _⟩ => fun c => dat11 (V12 m) c
  | ⟨12, _⟩ => fun c => dat12 (V13 m) c
  | ⟨13, _⟩ => fun c => dat13 (V15 m) c

/-- What regOf needs of the proof data, for the fourteen regions at once: each case holds by unfolding. -/
theorem pdats_plain (p : Fin 14) (c : Dev nD) :
    (∀ w, (pdats m p c).A w = Wat m p c (Proc.devRef .tc (Pipeline.arrRef (cfgs p).spec w))) ∧ (∀ w, (pdats m p c).q w = fullShare)
      ∧ (∀ t, (pdats m p c).owed t = 0) ∧ (∀ t, (pdats m p c).recorded t = Set.univ) ∧ ∀ i, (pdats m p c).Φ i = Pipeline.ΦA (cfgs p).spec c := by
  fin_cases p <;> exact ⟨fun _ => rfl, fun _ => rfl, fun _ => rfl, fun _ => rfl, fun _ => rfl⟩

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W16 m c) ∗ ∃ r, prngReg c r)

set_option backward.isDefEq.respectTransparency.types false in
/-- Region p as a segment of the run, from the contents it is entered with to the contents it leaves. -/
def regOf (p : Fin 14) (lf : Pipeline.LaunchFacts (nD := nD) (τ := τ) cfgs p)
    (hb : ∀ c, BodyObligation (pdats m p c) (defs₀ (F := F)) Variants.none () Set.univ) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.2.1
  pre c := iprop(StableHlo.held (c : Thread nD τ) (Pipeline.ucRefs τ sig) (Wat m p c) ∗ R c)
  post c := iprop(StableHlo.held (c : Thread nD τ) (Pipeline.ucRefs τ sig) (next c (pdats m p c) (Wat m p c)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wat m p c b)
  hentry c := by
    obtain ⟨hA, hq, howed, hrec, -⟩ := pdats_plain m p c
    rw [Pipeline.ownSems0_none]
    have hsplit := Pipeline.arrays_of_unscopedBufs (p := p) (pcfgs (F := F)) adm (pdats m) lf.win lf.arr_whole c
      ((pdats m p c).share_full hq) (fun b => Wat m p c b) hA
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitl [Hp]; · iexact Hp
    iexact Hrest
  hin c := by
    rw [(pdats_plain m p c).2.2.2.2]; unfold Pipeline.ΦA
    iintro ⟨Hp, -, Hr⟩
    isplitl [Hr]; · iexact Hr
    iexact Hp
  hout c := by
    rw [Pipeline.ownSems0_none, (pdats_plain m p c).2.2.2.2]; unfold Pipeline.ΦA
    iintro ⟨Hr, Hp⟩
    isplitl [Hp]; · iexact Hp
    isplitr; · iempintro
    iexact Hr
  hexit c := by
    obtain ⟨-, hq, howed, -, -⟩ := pdats_plain m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq)
      (fun b => Wat m p c b) (fun b => next c (pdats m p c) (Wat m p c) b) ((pdats m p c).arrAt · (cfgs p).N)
      (fun w => (next_arr c _ _ lf w).symm)
      (fun b hb => next_of_ne c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

abbrev reg0 := regOf m 0 launch0 (body_obligation0 (V0 m))
abbrev reg1 := regOf m 1 launch1 (body_obligation1 (V1 m))
abbrev reg2 := regOf m 2 launch2 (body_obligation2 (V2 m))
abbrev reg3 := regOf m 3 launch3 (body_obligation3 (V3 m))
abbrev reg4 := regOf m 4 launch4 (body_obligation4 (V4 m))
abbrev reg5 := regOf m 5 launch5 (body_obligation5 (V5 m))
abbrev reg6 := regOf m 6 launch6 (body_obligation6 (V6 m))
abbrev reg7 := regOf m 7 launch7 (body_obligation7 (V8 m))
abbrev reg8 := regOf m 8 launch8 (body_obligation8 (V9 m))
abbrev reg9 := regOf m 9 launch9 (body_obligation9 (V10 m))
abbrev reg10 := regOf m 10 launch10 (body_obligation10 (V11 m))
abbrev reg11 := regOf m 11 launch11 (body_obligation11 (V12 m))
abbrev reg12 := regOf m 12 launch12 (body_obligation12 (V13 m))
abbrev reg13 := regOf m 13 launch13 (body_obligation13 (V15 m))

end Cert.KernelIdeal.Fr

end
-- ==== Proof.KI.Run.lean ====
import proofs.«110190_j59090160058610_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev H7 : Pipeline.HostSeg (Name := ℕ) (U := UR sig nD τ) (pcfgs (F := F)) defs₀ 𝒱₀ L lv := hseg hostOps7 hostOps7_sub hostOps7_fresh (W7 m)
abbrev H13 : Pipeline.HostSeg (Name := ℕ) (U := UR sig nD τ) (pcfgs (F := F)) defs₀ 𝒱₀ L lv := hseg hostOps13 hostOps13_sub hostOps13_fresh (W14 m)

/-- @main's sixteen items in order: fourteen regions and two host stretches. -/
abbrev segs : List (Pipeline.Seg (pcfgs (F := F)) adm (pdats m) () defs₀ 𝒱₀ L lv) :=
  [.region (reg0 m), .region (reg1 m), .region (reg2 m), .region (reg3 m), .region (reg4 m), .region (reg5 m), .region (reg6 m),
    .host (H7 m), .region (reg7 m), .region (reg8 m), .region (reg9 m), .region (reg10 m), .region (reg11 m), .region (reg12 m),
    .host (H13 m), .region (reg13 m)]

theorem main_run (c : Dev nD) : main (F := F) c = Pipeline.Seg.run (segs m) :=
  main_segs adm (pdats m) () 𝒱₀ L lv (H7 m) (H13 m) (reg0 m) (reg1 m) (reg2 m) (reg3 m) (reg4 m) (reg5 m) (reg6 m) (reg7 m) (reg8 m) (reg9 m) (reg10 m) (reg11 m) (reg12 m) (reg13 m) rfl rfl c

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

/-- The buffers @main's items write. -/
abbrev produced : List (Ref sig .tc) :=
  [main_v0, main_v1, main_v2, main_v3, main_v4, main_v5, main_v6, main_v7, main_v8, main_v9, main_v10, main_v11, main_v12, main_v13, main_v14, main_v15, main_v16]

/-- Each item keeps every buffer but its own result. -/
theorem W16_of_not_produced (c : Dev nD) (b : Ref sig .tc) (hb : b ∉ produced) :
    W16 m c (Proc.devRef .tc b) = m ((c : Thread nD τ).loc b) :=
  have ne {x : Ref sig .tc} (hx : x ∈ produced) : b ≠ x := fun e => hb (e ▸ hx)
  (W16_keep m c b (ne (by decide))).trans <|
    (W15_keep m c b fun h => hb ((by decide : hostOps13_W ⊆ produced) h)).trans <|
    (W14_keep m c b (ne (by decide))).trans <|
    (W13_keep m c b (ne (by decide))).trans <|
    (W12_keep m c b (ne (by decide))).trans <|
    (W11_keep m c b (ne (by decide))).trans <|
    (W10_keep m c b (ne (by decide))).trans <|
    (W9_keep m c b (ne (by decide))).trans <|
    (W8_keep m c b fun h => hb ((by decide : hostOps7_W ⊆ produced) h)).trans <|
    (W7_keep m c b (ne (by decide))).trans <|
    (W6_keep m c b (ne (by decide))).trans <|
    (W5_keep m c b (ne (by decide))).trans <|
    (W4_keep m c b (ne (by decide))).trans <|
    (W3_keep m c b (ne (by decide))).trans <|
    (W2_keep m c b (ne (by decide))).trans <|
    (W1_keep m c b (ne (by decide))).trans <| rfl

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W16_of_not_produced m c main_arg0 (by decide)),
      (h c _ (mem_uc main_arg1 (by decide))).trans (W16_of_not_produced m c main_arg1 (by decide)),
      (h c _ (mem_uc main_arg2 (by decide))).trans (W16_of_not_produced m c main_arg2 (by decide)),
      (h c _ (mem_uc main_arg3 (by decide))).trans (W16_of_not_produced m c main_arg3 (by decide)),
      (h c _ (mem_uc main_arg4 (by decide))).trans (W16_of_not_produced m c main_arg4 (by decide)),
      (h c _ (mem_uc main_arg5 (by decide))).trans (W16_of_not_produced m c main_arg5 (by decide)),
      (h c _ (mem_uc main_arg6 (by decide))).trans (W16_of_not_produced m c main_arg6 (by decide)),
      (h c _ (mem_uc main_arg7 (by decide))).trans (W16_of_not_produced m c main_arg7 (by decide)),
      (h c _ (mem_uc main_arg8 (by decide))).trans (W16_of_not_produced m c main_arg8 (by decide)),
      (h c _ (mem_uc main_arg9 (by decide))).trans (W16_of_not_produced m c main_arg9 (by decide))⟩) (run_all m ρ)

end Cert.KernelIdeal.Fr

end
-- ==== Proof.Spec.lean ====
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

abbrev Mat (a b : Nat) : Type := (⟨2, ![a, b]⟩ : Shape).Idx → EReal

abbrev Row (n : Nat) : Type := (⟨1, ![n]⟩ : Shape).Idx → EReal

def mm {a k b : Nat} (x : Mat a k) (y : Mat k b) : Mat a b :=
  fun i => ∑ j : Fin k, x (ix2 (i 0) j) * y (ix2 j (i 1))

def relu {a b : Nat} (x : Mat a b) : Mat a b := fun i => max (x i) 0

def addRow {a b : Nat} (x : Mat a b) (v : Row b) : Mat a b := fun i => x i + v (ix1 (i 1))

def rowOf {n : Nat} (x : Mat 1 n) : Row n := fun i => x (ix2 (0 : Fin 1) (i 0))

theorem cat3_shapes : Shape.Concatenates ([⟨2, ![10000, 400]⟩, ⟨2, ![10000, 400]⟩, ⟨2, ![10000, 400]⟩] : List Shape) ⟨2, ![10000, 1200]⟩ 1 := by
  decide

def cat3 (x y z : Mat 10000 400) : Mat 10000 1200 :=
  concatenate (⟨2, ![10000, 1200]⟩ : Shape) 1 [⟨⟨2, ![10000, 400]⟩, x⟩, ⟨⟨2, ![10000, 400]⟩, y⟩, ⟨⟨2, ![10000, 400]⟩, z⟩] cat3_shapes

def layer1 (f : Mat 10000 500) (adj : Mat 10000 10000) (wu1 wu2 wu3 : Mat 500 400) : Mat 10000 1200 :=
  cat3 (relu (mm f wu1)) (mm adj (relu (mm f wu2))) (mm adj (mm adj (relu (mm f wu3))))

def layer2 (a1 : Mat 10000 1200) (adj : Mat 10000 10000) (wb1 wb2 wb3 : Mat 1200 400) : Mat 10000 1200 :=
  cat3 (mm a1 wb1) (mm adj (mm a1 wb2)) (mm adj (mm adj (mm a1 wb3)))

def out (f : Mat 10000 500) (adj : Mat 10000 10000) (wu1 wu2 wu3 : Mat 500 400) (wb1 wb2 wb3 : Mat 1200 400)
    (wfc : Mat 1200 1200) (bfc : Row 1200) : Mat 10000 1200 :=
  relu (addRow (mm (layer2 (layer1 f adj wu1 wu2 wu3) adj wb1 wb2 wb3) wfc) bfc)

end Cert.Spec

end
-- ==== Proof.KI.Val0.lean ====
import proofs.«110190_j59090160058610_1_alg».proof.Proof.KI.Reg0
import proofs.«110190_j59090160058610_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem pay0_apply (x0 : Vec Ideal S200x10000 .f32) (p : Fin 200) (q : Fin 10000) :
    k0_pay1 x0 (ix2 p q) = x0 (ix2 p q) := by
  unfold k0_pay1
  rfl

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

abbrev whole0 (c : Dev nD) : Cert.Spec.Mat 10000 10000 := (V c (Pipeline.arrRef spec0 0) : Cert.Spec.Mat 10000 10000)

theorem blockA0 (c : Dev nD) (t : Fin cfg0.N) (p : Fin 200) (k : Fin 10000) (r : Fin 10000) (hr : r.val = 200 * t.val + p.val) :
    (iblk0 V c 0 t : Vec Ideal S200x10000 .f32) (ix2 p k) = (V c (Pipeline.arrRef spec0 0) : Cert.Spec.Mat 10000 10000) (ix2 r k) := by
  obtain ⟨e0, e1, -⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 200 + 1 * p.val = r.val; rw [e0, hr]; omega
  | ⟨1, _⟩ => show win0_0.index t (1 : Fin 2) * 10000 + 1 * k.val = k.val; rw [e1]; omega

theorem flushed0_eq (c : Dev nD) (t : Fin cfg0.N) :
    (dat0 (F := Ideal) V c).flushed 1 t = ((cfg0.win 1).blk t).view.read (Elt Ideal) (whole0 V c) := by
  show (cfg0.win 1).cut (grid0.coords t) ((dat0 V c).after 1 t) = _
  rw [after0_1]
  unfold out0_1
  rw [View.canon_unit_zero hz0]
  simp only [View.ld_unit_zero (S := S200x10000) hz0]
  obtain ⟨-, -, e0, e1⟩ := idx_facts0 t
  have hN : grid0.N = 50 := N_0
  have ht : t.val < 50 := hN ▸ t.isLt
  funext j
  have hj0 : (j 0).val < 200 := (j 0).isLt
  have hj1 : (j 1).val < 10000 := (j 1).isLt
  have ex : (cfg0.win 1).xinj (grid0.coords t) j = ix2 (⟨(j 0).val, hj0⟩ : Fin 200) (⟨(j 1).val, hj1⟩ : Fin 10000) :=
    funext fun a => by match a with | ⟨0, _⟩ => rfl | ⟨1, _⟩ => rfl
  have ei : ((cfg0.win 1).blk t).view.emb j = ix2 (⟨200 * t.val + (j 0).val, by omega⟩ : Fin 10000) (⟨(j 1).val, hj1⟩ : Fin 10000) :=
    funext fun a => Fin.ext (by
      match a with
      | ⟨0, _⟩ => show win0_1.index t (0 : Fin 2) * 200 + 1 * (j 0).val = 200 * t.val + (j 0).val; rw [e0]; omega
      | ⟨1, _⟩ => show win0_1.index t (1 : Fin 2) * 10000 + 1 * (j 1).val = (j 1).val; rw [e1]; omega)
  show k0_pay1 (iblk0 V c 0 t) ((cfg0.win 1).xinj (grid0.coords t) j) = whole0 V c (((cfg0.win 1).blk t).view.emb j)
  rw [ex, ei]
  refine (pay0_apply (iblk0 V c 0 t) ⟨(j 0).val, hj0⟩ ⟨(j 1).val, hj1⟩).trans ?_
  exact blockA0 V c t ⟨(j 0).val, hj0⟩ ⟨(j 1).val, hj1⟩ ⟨200 * t.val + (j 0).val, by omega⟩ rfl

theorem mem_blk0 (t : Fin cfg0.N) (i : S10000x10000.Idx) :
    i ∈ ((cfg0.win 1).blk t).view.set ↔ ∀ a : Fin 2, win0_1.index t a * S200x10000.size a ≤ (i a).val ∧ (i a).val < win0_1.index t a * S200x10000.size a + S200x10000.size a := by
  show i ∈ ((View.whole main_v0).slice (win0_1.rect t)).set ↔ _
  rw [View.set_slice_whole, Rect.mem_set_unit]
  exact Iff.rfl

theorem cover_arr0 (i : S10000x10000.Idx) : ∃ t : Fin cfg0.N, (cfg0.win 1).flush t = true ∧ i ∈ ((cfg0.win 1).blk t).view.set := by
  have hN : grid0.N = 50 := N_0
  have hi0 : (i 0).val < 10000 := (i 0).isLt
  have hi1 : (i 1).val < 10000 := (i 1).isLt
  obtain ⟨t, ht⟩ : ∃ t : Fin cfg0.N, t.val = (i 0).val / 200 :=
    ⟨⟨(i 0).val / 200, by show (i 0).val / 200 < grid0.N; rw [hN]; omega⟩, rfl⟩
  obtain ⟨-, -, e0, e1⟩ := idx_facts0 t
  refine ⟨t, flush0_1 t, ?_⟩
  rw [mem_blk0]
  intro a
  match a with
  | ⟨0, _⟩ => show win0_1.index t (0 : Fin 2) * 200 ≤ (i 0).val ∧ (i 0).val < win0_1.index t (0 : Fin 2) * 200 + 200; rw [e0, ht]; omega
  | ⟨1, _⟩ => show win0_1.index t (1 : Fin 2) * 10000 ≤ (i 1).val ∧ (i 1).val < win0_1.index t (1 : Fin 2) * 10000 + 10000; rw [e1]; omega

theorem final0 (c : Dev nD) :
    ((dat0 (F := Ideal) V c).arrAt 1 cfg0.N : Cert.Spec.Mat 10000 10000) = (V c (Pipeline.arrRef spec0 0) : Cert.Spec.Mat 10000 10000) :=
  (dat0 (F := Ideal) V c).arrAt_eq_of_cover 1 (whole0 V c) (fun t _ => flushed0_eq V c t) cover_arr0

end Cert.KernelIdeal.Val

end
-- ==== Proof.KI.Val1.lean ====
import proofs.«110190_j59090160058610_1_alg».proof.Proof.KI.Reg1
import proofs.«110190_j59090160058610_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx Idealize.ShloMosaic.TcCoe
open Idealize.ShloMosaic.Pipeline (Dat)

theorem hz1 : (![0, 0] : Fin 2 → Nat) = fun _ => 0 := funext fun a => by fin_cases a <;> rfl

theorem pay1_lhs_0 (i : S400x400.Idx) (k : dot_S400x500_S500x400_S400x400_1_0_0_1_n_n.contr.Idx) :
    (dot_S400x500_S500x400_S400x400_1_0_0_1_n_n.lhsIdx i k 0).val = (i 0).val := by
  unfold DotDims.lhsIdx
  rw [dif_neg (show ¬(0 : Fin S400x500.rank) ∈ dot_S400x500_S500x400_S400x400_1_0_0_1_n_n.lhsBatch by decide), dif_pos (show (0 : Fin S400x500.rank) ∈ dot_S400x500_S500x400_S400x400_1_0_0_1_n_n.lhsNonContracting by decide)]
  rfl

theorem pay1_lhs_1 (i : S400x400.Idx) (k : dot_S400x500_S500x400_S400x400_1_0_0_1_n_n.contr.Idx) :
    (dot_S400x500_S500x400_S400x400_1_0_0_1_n_n.lhsIdx i k 1).val = (k ⟨0, by decide⟩).val :=
  dot_S400x500_S500x400_S400x400_1_0_0_1_n_n.lhsIdx_val_of_single rfl i k

theorem pay1_rhs_0 (i : S400x400.Idx) (k : dot_S400x500_S500x400_S400x400_1_0_0_1_n_n.contr.Idx) :
    (dot_S400x500_S500x400_S400x400_1_0_0_1_n_n.rhsIdx i k 0).val = (k ⟨0, by decide⟩).val :=
  dot_S400x500_S500x400_S400x400_1_0_0_1_n_n.rhsIdx_val_of_single rfl i k

theorem pay1_rhs_1 (i : S400x400.Idx) (k : dot_S400x500_S500x400_S400x400_1_0_0_1_n_n.contr.Idx) :
    (dot_S400x500_S500x400_S400x400_1_0_0_1_n_n.rhsIdx i k 1).val = (i 1).val := by
  unfold DotDims.rhsIdx
  rw [dif_neg (show ¬(1 : Fin S500x400.rank) ∈ dot_S400x500_S500x400_S400x400_1_0_0_1_n_n.rhsBatch by decide), dif_pos (show (1 : Fin S500x400.rank) ∈ dot_S400x500_S500x400_S400x400_1_0_0_1_n_n.rhsNonContracting by decide)]
  rfl

theorem pay1_apply (x0 : Vec Ideal S400x500 .f32) (x1 : Vec Ideal S500x400 .f32) (p : Fin 400) (q : Fin 400) :
    k1_pay1 x0 x1 (ix2 p q) = max (∑ j : Fin 500, x0 (ix2 p j) * x1 (ix2 j q)) 0 := by
  unfold k1_pay1
  show max (matmul dot_S400x500_S500x400_S400x400_1_0_0_1_n_n none (truncf FTy.bf16 x0 bitsLt_bf16_f32)
      (truncf FTy.bf16 x1 bitsLt_bf16_f32) (constant S400x400 FTy.f32 0x00000000#32) (ix2 p q)) (Ideal.ofBits .f32 0x00000000#32) = _
  rw [Ideal.ofBits_zero_f32]
  refine congrArg (max · 0) ?_
  refine (Ideal.matmul_constant_zero_apply dot_S400x500_S500x400_S400x400_1_0_0_1_n_n none _ _ (ix2 p q)).trans ?_
  rw [← Equiv.sum_comp (contrEquiv1 dot_S400x500_S500x400_S400x400_1_0_0_1_n_n 500 rfl rfl).symm]
  refine Finset.sum_congr rfl fun j _ => ?_
  have hj := contrEquiv1_symm_val dot_S400x500_S500x400_S400x400_1_0_0_1_n_n 500 rfl rfl j
  have el : dot_S400x500_S500x400_S400x400_1_0_0_1_n_n.lhsIdx (ix2 p q) ((contrEquiv1 dot_S400x500_S500x400_S400x400_1_0_0_1_n_n 500 rfl rfl).symm j) = ix2 p j := funext fun a => Fin.ext (by
    match a with
    | ⟨0, _⟩ => exact pay1_lhs_0 _ _
    | ⟨1, _⟩ => exact (pay1_lhs_1 _ _).trans hj)
  have er : dot_S400x500_S500x400_S400x400_1_0_0_1_n_n.rhsIdx (ix2 p q) ((contrEquiv1 dot_S400x500_S500x400_S400x400_1_0_0_1_n_n 500 rfl rfl).symm j) = ix2 j q := funext fun a => Fin.ext (by
    match a with
    | ⟨0, _⟩ => exact (pay1_rhs_0 _ _).trans hj
    | ⟨1, _⟩ => exact pay1_rhs_1 _ _)
  rw [el, er]
  rfl

section
variable (V : (c : Dev nD) → (b : Ref sig .tc) → Buf (Elt Ideal) ((c : Thread nD τ).loc b))

abbrev blockA1 (c : Dev nD) : Cert.Spec.Mat 10000 500 := V c (Pipeline.arrRef spec1 0)

abbrev blockB1 (c : Dev nD) : Cert.Spec.Mat 500 400 := V c (Pipeline.arrRef spec1 1)

theorem idx_facts1 : ∀ t : Fin cfg1.N, (cfg1.win 0).index t (0 : Fin 2) = t.val ∧ (cfg1.win 0).index t (1 : Fin 2) = 0
    ∧ (cfg1.win 1).index t (0 : Fin 2) = 0 ∧ (cfg1.win 1).index t (1 : Fin 2) = 0
    ∧ (cfg1.win 2).index t (0 : Fin 2) = t.val ∧ (cfg1.win 2).index t (1 : Fin 2) = 0
    ∧ (cfg1.win 2).flush t = true ∧ t.val < 25 :=
  (by decide +kernel : ∀ t : Fin grid1.N, _)

theorem pay1_point (A : Cert.Spec.Mat 10000 500) (B : Cert.Spec.Mat 500 400) (x0 : Vec Ideal S400x500 .f32) (x1 : Vec Ideal S500x400 .f32)
    (r : Fin 10000) (p q : Fin 400) (h0 : ∀ j : Fin 500, x0 (ix2 p j) = A (ix2 r j)) (h1 : ∀ j : Fin 500, x1 (ix2 j q) = B (ix2 j q)) :
    k1_pay1 x0 x1 (ix2 p q) = Cert.Spec.relu (Cert.Spec.mm A B) (ix2 r q) := by
  rw [pay1_apply]
  show _ = max (∑ j : Fin 500, A (ix2 r j) * B (ix2 j q)) 0
  exact congrArg (max · 0) (Finset.sum_congr rfl fun j _ => by rw [h0 j, h1 j])

theorem flushed1_eq (c : Dev nD) (t : Fin cfg1.N) :
    (dat1 (F := Ideal) V c).flushed 2 t = ((cfg1.win 2).blk t).view.read (Elt Ideal) (Cert.Spec.relu (Cert.Spec.mm (blockA1 V c) (blockB1 V c))) := by
  show (cfg1.win 2).cut (grid1.coords t) ((dat1 V c).after 2 t) = _
  rw [after1_2]
  unfold out1_2
  rw [View.canon_unit_zero hz1]
  simp only [View.ld_unit_zero (S := S400x500) hz1, View.ld_unit_zero (S := S500x400) hz1]
  obtain ⟨e0, e1, e2, e3, e4, e5, -, ht⟩ := idx_facts1 t
  funext j
  have hp : (j 0).val < 400 := (j 0).isLt
  have hq : (j 1).val < 400 := (j 1).isLt
  have hx : (cfg1.win 2).xinj (grid1.coords t) j = ix2 (⟨(j 0).val, hp⟩ : Fin 400) (⟨(j 1).val, hq⟩ : Fin 400) :=
    funext fun a => by match a with | ⟨0, _⟩ => rfl | ⟨1, _⟩ => rfl
  have he : ((cfg1.win 2).blk t).view.emb j = ix2 (⟨t.val * 400 + (j 0).val, by omega⟩ : Fin 10000) (⟨(j 1).val, hq⟩ : Fin 400) :=
    funext fun a => Fin.ext (by
      match a with
      | ⟨0, _⟩ => show (cfg1.win 2).index t (0 : Fin 2) * 400 + 1 * (j 0).val = t.val * 400 + (j 0).val; rw [e4]; omega
      | ⟨1, _⟩ => show (cfg1.win 2).index t (1 : Fin 2) * 400 + 1 * (j 1).val = (j 1).val; rw [e5]; omega)
  show k1_pay1 (iblk1 V c 0 t) (iblk1 V c 1 t) ((cfg1.win 2).xinj (grid1.coords t) j)
    = Cert.Spec.relu (Cert.Spec.mm (blockA1 V c) (blockB1 V c)) (((cfg1.win 2).blk t).view.emb j)
  rw [hx, he]
  refine pay1_point (blockA1 V c) (blockB1 V c) (iblk1 V c 0 t) (iblk1 V c 1 t) _ _ _ (fun k => ?_) (fun k => ?_)
  · show V c (Pipeline.arrRef spec1 0) (((cfg1.win 0).blk t).view.emb (ix2 (⟨(j 0).val, hp⟩ : Fin 400) k)) = V c (Pipeline.arrRef spec1 0) _
    refine congrArg (V c (Pipeline.arrRef spec1 0)) (funext fun a => Fin.ext ?_)
    match a with
    | ⟨0, _⟩ => show (cfg1.win 0).index t (0 : Fin 2) * 400 + 1 * (j 0).val = t.val * 400 + (j 0).val; rw [e0]; omega
    | ⟨1, _⟩ => show (cfg1.win 0).index t (1 : Fin 2) * 500 + 1 * k.val = k.val; rw [e1]; omega
  · show V c (Pipeline.arrRef spec1 1) (((cfg1.win 1).blk t).view.emb (ix2 k (⟨(j 1).val, hq⟩ : Fin 400))) = V c (Pipeline.arrRef spec1 1) _
    refine congrArg (V c (Pipeline.arrRef spec1 1)) (funext fun a => Fin.ext ?_)
    match a with
    | ⟨0, _⟩ => show (cfg1.win 1).index t (0 : Fin 2) * 500 + 1 * k.val = k.val; rw [e2]; omega
    | ⟨1, _⟩ => show (cfg1.win 1).index t (1 : Fin 2) * 400 + 1 * (j 1).val = (j 1).val; rw [e3]; omega

theorem mem_blk1 (t : Fin cfg1.N) (i : S10000x400.Idx) :
    i ∈ ((cfg1.win 2).blk t).view.set ↔ ∀ a : Fin 2, (cfg1.win 2).index t a * S400x400.size a ≤ (i a).val ∧ (i a).val < (cfg1.win 2).index t a * S400x400.size a + S400x400.size a := by
  show i ∈ ((View.whole (Pipeline.arrRef spec1 2)).slice ((cfg1.win 2).rect t)).set ↔ _
  rw [View.set_slice_whole, Rect.mem_set_unit]
  exact Iff.rfl

theorem cover_arr1 (i : S10000x400.Idx) : ∃ t : Fin cfg1.N, (cfg1.win 2).flush t = true ∧ i ∈ ((cfg1.win 2).blk t).view.set := by
  have hi0 : (i 0).val < 10000 := (i 0).isLt
  have hi1 : (i 1).val < 400 := (i 1).isLt
  have hN : cfg1.N = 25 := N_1
  let t : Fin cfg1.N := ⟨(i 0).val / 400, by rw [hN]; omega⟩
  obtain ⟨-, -, -, -, e4, e5, hf, -⟩ := idx_facts1 t
  have e4' : (cfg1.win 2).index t (0 : Fin 2) = (i 0).val / 400 := e4
  refine ⟨t, hf, ?_⟩
  rw [mem_blk1]
  intro a
  match a with
  | ⟨0, _⟩ => show (cfg1.win 2).index t (0 : Fin 2) * 400 ≤ (i 0).val ∧ (i 0).val < (cfg1.win 2).index t (0 : Fin 2) * 400 + 400; rw [e4']; omega
  | ⟨1, _⟩ => show (cfg1.win 2).index t (1 : Fin 2) * 400 ≤ (i 1).val ∧ (i 1).val < (cfg1.win 2).index t (1 : Fin 2) * 400 + 400; rw [e5]; omega

theorem final1 (c : Dev nD) : ((dat1 (F := Ideal) V c).arrAt 2 cfg1.N : Cert.Spec.Mat 10000 400)
    = Cert.Spec.relu (Cert.Spec.mm (V c (Pipeline.arrRef spec1 0)) (V c (Pipeline.arrRef spec1 1))) :=
  (dat1 (F := Ideal) V c).arrAt_eq_of_cover 2 (Cert.Spec.relu (Cert.Spec.mm (blockA1 V c) (blockB1 V c))) (fun t _ => flushed1_eq V c t) cover_arr1

end

end Cert.KernelIdeal.Val

end
-- ==== Proof.KI.Val2.lean ====
import proofs.«110190_j59090160058610_1_alg».proof.Proof.KI.Reg2
import proofs.«110190_j59090160058610_1_alg».proof.Proof.KI.Val1

set_option maxRecDepth 16384

noncomputable section

namespace Cert.KernelIdeal.Val

open Cert.KernelIdeal Cert.KernelIdeal.Gen Cert.KernelIdeal.Fr Idealize.ShloMosaic Idealize.ShloMosaic.ValueIdx Idealize.ShloMosaic.TcCoe
open Idealize.ShloMosaic.Pipeline (Dat)

section
variable (V : (c : Dev nD) → (b : Ref sig .tc) → Buf (Elt Ideal) ((c : Thread nD τ).loc b))

abbrev blockA2 (c : Dev nD) : Cert.Spec.Mat 10000 500 := V c (Pipeline.arrRef spec2 0)

abbrev blockB2 (c : Dev nD) : Cert.Spec.Mat 500 400 := V c (Pipeline.arrRef spec2 1)

theorem idx_facts2 : ∀ t : Fin cfg2.N, (cfg2.win 0).index t (0 : Fin 2) = t.val ∧ (cfg2.win 0).index t (1 : Fin 2) = 0
    ∧ (cfg2.win 1).index t (0 : Fin 2) = 0 ∧ (cfg2.win 1).index t (1 : Fin 2) = 0
    ∧ (cfg2.win 2).index t (0 : Fin 2) = t.val ∧ (cfg2.win 2).index t (1 : Fin 2) = 0
    ∧ (cfg2.win 2).flush t = true ∧ t.val < 25 :=
  (by decide +kernel : ∀ t : Fin grid2.N, _)

theorem flushed2_eq (c : Dev nD) (t : Fin cfg2.N) :
    (dat2 (F := Ideal) V c).flushed 2 t = ((cfg2.win 2).blk t).view.read (Elt Ideal) (Cert.Spec.relu (Cert.Spec.mm (blockA2 V c) (blockB2 V c))) := by
  show (cfg2.win 2).cut (grid2.coords t) ((dat2 V c).after 2 t) = _
  rw [after2_2]
  unfold out1_2
  rw [View.canon_unit_zero hz1]
  simp only [View.ld_unit_zero (S := S400x500) hz1, View.ld_unit_zero (S := S500x400) hz1]
  obtain ⟨e0, e1, e2, e3, e4, e5, -, ht⟩ := idx_facts2 t
  funext j
  have hp : (j 0).val < 400 := (j 0).isLt
  have hq : (j 1).val < 400 := (j 1).isLt
  have hx : (cfg2.win 2).xinj (grid2.coords t) j = ix2 (⟨(j 0).val, hp⟩ : Fin 400) (⟨(j 1).val, hq⟩ : Fin 400) :=
    funext fun a => by match a with | ⟨0, _⟩ => rfl | ⟨1, _⟩ => rfl
  have he : ((cfg2.win 2).blk t).view.emb j = ix2 (⟨t.val * 400 + (j 0).val, by omega⟩ : Fin 10000) (⟨(j 1).val, hq⟩ : Fin 400) :=
    funext fun a => Fin.ext (by
      match a with
      | ⟨0, _⟩ => show (cfg2.win 2).index t (0 : Fin 2) * 400 + 1 * (j 0).val = t.val * 400 + (j 0).val; rw [e4]; omega
      | ⟨1, _⟩ => show (cfg2.win 2).index t (1 : Fin 2) * 400 + 1 * (j 1).val = (j 1).val; rw [e5]; omega)
  show k1_pay1 (iblk2 V c 0 t) (iblk2 V c 1 t) ((cfg2.win 2).xinj (grid2.coords t) j)
    = Cert.Spec.relu (Cert.Spec.mm (blockA2 V c) (blockB2 V c)) (((cfg2.win 2).blk t).view.emb j)
  rw [hx, he]
  refine pay1_point (blockA2 V c) (blockB2 V c) (iblk2 V c 0 t) (iblk2 V c 1 t) _ _ _ (fun k => ?_) (fun k => ?_)
  · show V c (Pipeline.arrRef spec2 0) (((cfg2.win 0).blk t).view.emb (ix2 (⟨(j 0).val, hp⟩ : Fin 400) k)) = V c (Pipeline.arrRef spec2 0) _
    refine congrArg (V c (Pipeline.arrRef spec2 0)) (funext fun a => Fin.ext ?_)
    match a with
    | ⟨0, _⟩ => show (cfg2.win 0).index t (0 : Fin 2) * 400 + 1 * (j 0).val = t.val * 400 + (j 0).val; rw [e0]; omega
    | ⟨1, _⟩ => show (cfg2.win 0).index t (1 : Fin 2) * 500 + 1 * k.val = k.val; rw [e1]; omega
  · show V c (Pipeline.arrRef spec2 1) (((cfg2.win 1).blk t).view.emb (ix2 k (⟨(j 1).val, hq⟩ : Fin 400))) = V c (Pipeline.arrRef spec2 1) _
    refine congrArg (V c (Pipeline.arrRef spec2 1)) (funext fun a => Fin.ext ?_)
    match a with
    | ⟨0, _⟩ => show (cfg2.win 1).index t (0 : Fin 2) * 500 + 1 * k.val = k.val; rw [e2]; omega
    | ⟨1, _⟩ => show (cfg2.win 1).index t (1 : Fin 2) * 400 + 1 * (j 1).val = (j 1).val; rw [e3]; omega

theorem mem_blk2 (t : Fin cfg2.N) (i : S10000x400.Idx) :
    i ∈ ((cfg2.win 2).blk t).view.set ↔ ∀ a : Fin 2, (cfg2.win 2).index t a * S400x400.size a ≤ (i a).val ∧ (i a).val < (cfg2.win 2).index t a * S400x400.size a + S400x400.size a := by
  show i ∈ ((View.whole (Pipeline.arrRef spec2 2)).slice ((cfg2.win 2).rect t)).set ↔ _
  rw [View.set_slice_whole, Rect.mem_set_unit]
  exact Iff.rfl

theorem cover_arr2 (i : S10000x400.Idx) : ∃ t : Fin cfg2.N, (cfg2.win 2).flush t = true ∧ i ∈ ((cfg2.win 2).blk t).view.set := by
  have hi0 : (i 0).val < 10000 := (i 0).isLt
  have hi1 : (i 1).val < 400 := (i 1).isLt
  have hN : cfg2.N = 25 := N_2
  let t : Fin cfg2.N := ⟨(i 0).val / 400, by rw [hN]; omega⟩
  obtain ⟨-, -, -, -, e4, e5, hf, -⟩ := idx_facts2 t
  have e4' : (cfg2.win 2).index t (0 : Fin 2) = (i 0).val / 400 := e4
  refine ⟨t, hf, ?_⟩
  rw [mem_blk2]
  intro a
  match a with
  | ⟨0, _⟩ => show (cfg2.win 2).index t (0 : Fin 2) * 400 ≤ (i 0).val ∧ (i 0).val < (cfg2.win 2).index t (0 : Fin 2) * 400 + 400; rw [e4']; omega
  | ⟨1, _⟩ => show (cfg2.win 2).index t (1 : Fin 2) * 400 ≤ (i 1).val ∧ (i 1).val < (cfg2.win 2).index t (1 : Fin 2) * 400 + 400; rw [e5]; omega

theorem final2 (c : Dev nD) : ((dat2 (F := Ideal) V c).arrAt 2 cfg2.N : Cert.Spec.Mat 10000 400)
    = Cert.Spec.relu (Cert.Spec.mm (V c (Pipeline.arrRef spec2 0)) (V c (Pipeline.arrRef spec2 1))) :=
  (dat2 (F := Ideal) V c).arrAt_eq_of_cover 2 (Cert.Spec.relu (Cert.Spec.mm (blockA2 V c) (blockB2 V c))) (fun t _ => flushed2_eq V c t) cover_arr2

end

end Cert.KernelIdeal.Val

end
-- ==== Proof.KI.Val3.lean ====
import proofs.«110190_j59090160058610_1_alg».proof.Proof.KI.Reg3
import proofs.«110190_j59090160058610_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

theorem pay3_lhs_0 (i : S200x400.Idx) (k : dot_S200x10000_S10000x400_S200x400_1_0_0_1_n_n.contr.Idx) :
    (dot_S200x10000_S10000x400_S200x400_1_0_0_1_n_n.lhsIdx i k 0).val = (i 0).val := by
  unfold DotDims.lhsIdx
  rw [dif_neg (show ¬(0 : Fin S200x10000.rank) ∈ dot_S200x10000_S10000x400_S200x400_1_0_0_1_n_n.lhsBatch by decide), dif_pos (show (0 : Fin S200x10000.rank) ∈ dot_S200x10000_S10000x400_S200x400_1_0_0_1_n_n.lhsNonContracting by decide)]
  rfl

theorem pay3_lhs_1 (i : S200x400.Idx) (k : dot_S200x10000_S10000x400_S200x400_1_0_0_1_n_n.contr.Idx) :
    (dot_S200x10000_S10000x400_S200x400_1_0_0_1_n_n.lhsIdx i k 1).val = (k ⟨0, by decide⟩).val :=
  dot_S200x10000_S10000x400_S200x400_1_0_0_1_n_n.lhsIdx_val_of_single rfl i k

theorem pay3_rhs_0 (i : S200x400.Idx) (k : dot_S200x10000_S10000x400_S200x400_1_0_0_1_n_n.contr.Idx) :
    (dot_S200x10000_S10000x400_S200x400_1_0_0_1_n_n.rhsIdx i k 0).val = (k ⟨0, by decide⟩).val :=
  dot_S200x10000_S10000x400_S200x400_1_0_0_1_n_n.rhsIdx_val_of_single rfl i k

theorem pay3_rhs_1 (i : S200x400.Idx) (k : dot_S200x10000_S10000x400_S200x400_1_0_0_1_n_n.contr.Idx) :
    (dot_S200x10000_S10000x400_S200x400_1_0_0_1_n_n.rhsIdx i k 1).val = (i 1).val := by
  unfold DotDims.rhsIdx
  rw [dif_neg (show ¬(1 : Fin S10000x400.rank) ∈ dot_S200x10000_S10000x400_S200x400_1_0_0_1_n_n.rhsBatch by decide), dif_pos (show (1 : Fin S10000x400.rank) ∈ dot_S200x10000_S10000x400_S200x400_1_0_0_1_n_n.rhsNonContracting by decide)]
  rfl

theorem pay3_apply (x0 : Vec Ideal S200x10000 .bf16) (x1 : Vec Ideal S10000x400 .bf16) (p : Fin 200) (q : Fin 400) :
    (k3_pay1 (F := Ideal) x0 x1 (ix2 p q) : EReal) = ∑ j : Fin 10000, (x0 (ix2 p j) : EReal) * (x1 (ix2 j q) : EReal) := by
  unfold k3_pay1
  simp only [shapeCast_self]
  rw [truncf_apply]
  simp only [matmul]
  rw [Ideal.matmul_constant_zero_apply, ← Equiv.sum_comp (contrEquiv1 dot_S200x10000_S10000x400_S200x400_1_0_0_1_n_n 10000 rfl rfl).symm]
  refine Finset.sum_congr rfl fun j _ => ?_
  have hj := contrEquiv1_symm_val dot_S200x10000_S10000x400_S200x400_1_0_0_1_n_n 10000 rfl rfl j
  have el : dot_S200x10000_S10000x400_S200x400_1_0_0_1_n_n.lhsIdx (ix2 p q) ((contrEquiv1 dot_S200x10000_S10000x400_S200x400_1_0_0_1_n_n 10000 rfl rfl).symm j) = ix2 p j := funext fun a => Fin.ext (by
    match a with
    | ⟨0, _⟩ => exact pay3_lhs_0 _ _
    | ⟨1, _⟩ => exact (pay3_lhs_1 _ _).trans hj)
  have er : dot_S200x10000_S10000x400_S200x400_1_0_0_1_n_n.rhsIdx (ix2 p q) ((contrEquiv1 dot_S200x10000_S10000x400_S200x400_1_0_0_1_n_n 10000 rfl rfl).symm j) = ix2 j q := funext fun a => Fin.ext (by
    match a with
    | ⟨0, _⟩ => exact (pay3_rhs_0 _ _).trans hj
    | ⟨1, _⟩ => exact pay3_rhs_1 _ _)
  rw [el, er]

variable (V : (c : Dev nD) → (b : Ref sig .tc) → Buf (Elt Ideal) ((c : Thread nD τ).loc b))

theorem hz3 : (![0, 0] : Fin 2 → Nat) = fun _ => 0 := funext fun a => by fin_cases a <;> rfl

theorem pay3_lt (t : Fin cfg3.N) : t.val < 50 := lt_of_lt_of_eq t.isLt N_3

theorem idx_facts3 : ∀ t : Fin cfg3.N, (cfg3.win 0).index t (0 : Fin 2) = t.val ∧ (cfg3.win 0).index t (1 : Fin 2) = 0
    ∧ (cfg3.win 1).index t (0 : Fin 2) = 0 ∧ (cfg3.win 1).index t (1 : Fin 2) = 0
    ∧ (cfg3.win 2).index t (0 : Fin 2) = t.val ∧ (cfg3.win 2).index t (1 : Fin 2) = 0 :=
  (by decide +kernel : ∀ t : Fin grid3.N, _)

theorem flushed3_pt : ∀ t : Fin cfg3.N, (cfg3.win 2).flush t = true :=
  (by decide +kernel : ∀ t : Fin grid3.N, _)

theorem blockA3 (c : Dev nD) (t : Fin cfg3.N) (p : Fin 200) (k : Fin 10000) (r : Fin 10000) (hr : r.val = t.val * 200 + p.val) :
    (iblk3 V c 0 t (ix2 p k) : EReal) = (V c (Pipeline.arrRef spec3 0) : Cert.Spec.Mat 10000 10000) (ix2 r k) := by
  obtain ⟨e0, e1, e2, e3, e4, e5⟩ := idx_facts3 t
  unfold iblk3
  rw [View.read_apply]
  exact congrArg (V c (Pipeline.arrRef spec3 0) : Cert.Spec.Mat 10000 10000) (funext fun a => Fin.ext (by
    match a with
    | ⟨0, _⟩ => show (cfg3.win 0).index t (0 : Fin 2) * 200 + 1 * p.val = r.val; rw [e0, hr]; omega
    | ⟨1, _⟩ => show (cfg3.win 0).index t (1 : Fin 2) * 10000 + 1 * k.val = k.val; rw [e1]; omega))

theorem blockB3 (c : Dev nD) (t : Fin cfg3.N) (k : Fin 10000) (q : Fin 400) :
    (iblk3 V c 1 t (ix2 k q) : EReal) = (V c (Pipeline.arrRef spec3 1) : Cert.Spec.Mat 10000 400) (ix2 k q) := by
  obtain ⟨e0, e1, e2, e3, e4, e5⟩ := idx_facts3 t
  unfold iblk3
  rw [View.read_apply]
  exact congrArg (V c (Pipeline.arrRef spec3 1) : Cert.Spec.Mat 10000 400) (funext fun a => Fin.ext (by
    match a with
    | ⟨0, _⟩ => show (cfg3.win 1).index t (0 : Fin 2) * 10000 + 1 * k.val = k.val; rw [e2]; omega
    | ⟨1, _⟩ => show (cfg3.win 1).index t (1 : Fin 2) * 400 + 1 * q.val = q.val; rw [e3]; omega))

theorem rowOf3 (t : Fin cfg3.N) (j : S200x400.Idx) :
    ((((cfg3.win 2).blk t).view.emb j) 0).val = t.val * 200 + (j 0).val ∧ ((((cfg3.win 2).blk t).view.emb j) 1).val = (j 1).val := by
  obtain ⟨e0, e1, e2, e3, e4, e5⟩ := idx_facts3 t
  constructor
  · show (cfg3.win 2).index t (0 : Fin 2) * 200 + 1 * (j 0).val = _; rw [e4]; omega
  · show (cfg3.win 2).index t (1 : Fin 2) * 400 + 1 * (j 1).val = _; rw [e5]; omega

theorem flushed3_eq (c : Dev nD) (t : Fin cfg3.N) :
    (dat3 (F := Ideal) V c).flushed 2 t = ((cfg3.win 2).blk t).view.read (Elt Ideal)
      (Cert.Spec.mm (V c (Pipeline.arrRef spec3 0) : Cert.Spec.Mat 10000 10000) (V c (Pipeline.arrRef spec3 1) : Cert.Spec.Mat 10000 400)) := by
  show (cfg3.win 2).cut (grid3.coords t) ((dat3 V c).after 2 t) = _
  rw [after3_2]
  unfold out3_2
  rw [View.canon_unit_zero hz3]
  simp only [View.ld_unit_zero (S := S200x10000) hz3, View.ld_unit_zero (S := S10000x400) hz3]
  funext j
  show (k3_pay1 (F := Ideal) (iblk3 V c 0 t) (iblk3 V c 1 t) j : EReal)
    = Cert.Spec.mm (V c (Pipeline.arrRef spec3 0) : Cert.Spec.Mat 10000 10000) (V c (Pipeline.arrRef spec3 1) : Cert.Spec.Mat 10000 400) (((cfg3.win 2).blk t).view.emb j)
  refine (congrArg (k3_pay1 (F := Ideal) (iblk3 V c 0 t) (iblk3 V c 1 t)) (eq_ix2 (n0 := 200) (n1 := 400) j)).trans ?_
  refine (pay3_apply (iblk3 V c 0 t) (iblk3 V c 1 t) (j 0) (j 1)).trans ?_
  unfold Cert.Spec.mm
  refine Finset.sum_congr rfl fun k _ => ?_
  obtain ⟨h0, h1⟩ := rowOf3 t j
  have hq : (((cfg3.win 2).blk t).view.emb j) 1 = (j 1 : Fin 400) := Fin.ext h1
  refine (congrArg₂ (fun (x y : EReal) => x * y) (blockA3 V c t (j 0) k ((((cfg3.win 2).blk t).view.emb j) 0) h0) (blockB3 V c t k (j 1))).trans ?_
  rw [hq]

theorem mem_blk3 (t : Fin cfg3.N) (i : S10000x400.Idx) :
    i ∈ ((cfg3.win 2).blk t).view.set ↔ ∀ a : Fin 2, (cfg3.win 2).index t a * S200x400.size a ≤ (i a).val ∧ (i a).val < (cfg3.win 2).index t a * S200x400.size a + S200x400.size a := by
  rw [show ((cfg3.win 2).blk t).view.set = ((cfg3.win 2).rect t).set from View.set_slice_whole _ _, Rect.mem_set_unit]
  exact Iff.rfl

theorem cover_arr3 (i : S10000x400.Idx) : ∃ t : Fin cfg3.N, (cfg3.win 2).flush t = true ∧ i ∈ ((cfg3.win 2).blk t).view.set := by
  have hi0 : (i 0).val < 10000 := (i 0).isLt
  have hi1 : (i 1).val < 400 := (i 1).isLt
  have hN : (i 0).val / 200 < cfg3.N := lt_of_lt_of_eq (show (i 0).val / 200 < 50 by omega) N_3.symm
  obtain ⟨e0, e1, e2, e3, e4, e5⟩ := idx_facts3 ⟨(i 0).val / 200, hN⟩
  refine ⟨⟨(i 0).val / 200, hN⟩, flushed3_pt _, ?_⟩
  rw [mem_blk3]
  intro a
  match a with
  | ⟨0, _⟩ =>
    show (cfg3.win 2).index ⟨(i 0).val / 200, hN⟩ (0 : Fin 2) * 200 ≤ (i 0).val ∧ (i 0).val < (cfg3.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg3.win 2).index ⟨(i 0).val / 200, hN⟩ (1 : Fin 2) * 400 ≤ (i 1).val ∧ (i 1).val < (cfg3.win 2).index ⟨(i 0).val / 200, hN⟩ (1 : Fin 2) * 400 + 400
    rw [e5]; omega

theorem final3 (c : Dev nD) :
    ((dat3 (F := Ideal) V c).arrAt 2 cfg3.N : Cert.Spec.Mat 10000 400)
      = Cert.Spec.mm (V c (Pipeline.arrRef spec3 0) : Cert.Spec.Mat 10000 10000) (V c (Pipeline.arrRef spec3 1) : Cert.Spec.Mat 10000 400) :=
  (dat3 V c).arrAt_eq_of_cover 2 _ (fun t _ => flushed3_eq V c t) cover_arr3

end Cert.KernelIdeal.Val

end
-- ==== Proof.KI.Val4.lean ====
import proofs.«110190_j59090160058610_1_alg».proof.Proof.KI.Reg4
import proofs.«110190_j59090160058610_1_alg».proof.Proof.KI.Val1

set_option maxRecDepth 16384

noncomputable section

namespace Cert.KernelIdeal.Val

open Cert.KernelIdeal Cert.KernelIdeal.Gen Cert.KernelIdeal.Fr Idealize.ShloMosaic Idealize.ShloMosaic.ValueIdx Idealize.ShloMosaic.TcCoe
open Idealize.ShloMosaic.Pipeline (Dat)

section
variable (V : (c : Dev nD) → (b : Ref sig .tc) → Buf (Elt Ideal) ((c : Thread nD τ).loc b))

abbrev blockA4 (c : Dev nD) : Cert.Spec.Mat 10000 500 := V c (Pipeline.arrRef spec4 0)

abbrev blockB4 (c : Dev nD) : Cert.Spec.Mat 500 400 := V c (Pipeline.arrRef spec4 1)

theorem idx_facts4 : ∀ t : Fin cfg4.N, (cfg4.win 0).index t (0 : Fin 2) = t.val ∧ (cfg4.win 0).index t (1 : Fin 2) = 0
    ∧ (cfg4.win 1).index t (0 : Fin 2) = 0 ∧ (cfg4.win 1).index t (1 : Fin 2) = 0
    ∧ (cfg4.win 2).index t (0 : Fin 2) = t.val ∧ (cfg4.win 2).index t (1 : Fin 2) = 0
    ∧ (cfg4.win 2).flush t = true ∧ t.val < 25 :=
  (by decide +kernel : ∀ t : Fin grid4.N, _)

theorem flushed4_eq (c : Dev nD) (t : Fin cfg4.N) :
    (dat4 (F := Ideal) V c).flushed 2 t = ((cfg4.win 2).blk t).view.read (Elt Ideal) (Cert.Spec.relu (Cert.Spec.mm (blockA4 V c) (blockB4 V c))) := by
  show (cfg4.win 2).cut (grid4.coords t) ((dat4 V c).after 2 t) = _
  rw [after4_2]
  unfold out1_2
  rw [View.canon_unit_zero hz1]
  simp only [View.ld_unit_zero (S := S400x500) hz1, View.ld_unit_zero (S := S500x400) hz1]
  obtain ⟨e0, e1, e2, e3, e4, e5, -, ht⟩ := idx_facts4 t
  funext j
  have hp : (j 0).val < 400 := (j 0).isLt
  have hq : (j 1).val < 400 := (j 1).isLt
  have hx : (cfg4.win 2).xinj (grid4.coords t) j = ix2 (⟨(j 0).val, hp⟩ : Fin 400) (⟨(j 1).val, hq⟩ : Fin 400) :=
    funext fun a => by match a with | ⟨0, _⟩ => rfl | ⟨1, _⟩ => rfl
  have he : ((cfg4.win 2).blk t).view.emb j = ix2 (⟨t.val * 400 + (j 0).val, by omega⟩ : Fin 10000) (⟨(j 1).val, hq⟩ : Fin 400) :=
    funext fun a => Fin.ext (by
      match a with
      | ⟨0, _⟩ => show (cfg4.win 2).index t (0 : Fin 2) * 400 + 1 * (j 0).val = t.val * 400 + (j 0).val; rw [e4]; omega
      | ⟨1, _⟩ => show (cfg4.win 2).index t (1 : Fin 2) * 400 + 1 * (j 1).val = (j 1).val; rw [e5]; omega)
  show k1_pay1 (iblk4 V c 0 t) (iblk4 V c 1 t) ((cfg4.win 2).xinj (grid4.coords t) j)
    = Cert.Spec.relu (Cert.Spec.mm (blockA4 V c) (blockB4 V c)) (((cfg4.win 2).blk t).view.emb j)
  rw [hx, he]
  refine pay1_point (blockA4 V c) (blockB4 V c) (iblk4 V c 0 t) (iblk4 V c 1 t) _ _ _ (fun k => ?_) (fun k => ?_)
  · show V c (Pipeline.arrRef spec4 0) (((cfg4.win 0).blk t).view.emb (ix2 (⟨(j 0).val, hp⟩ : Fin 400) k)) = V c (Pipeline.arrRef spec4 0) _
    refine congrArg (V c (Pipeline.arrRef spec4 0)) (funext fun a => Fin.ext ?_)
    match a with
    | ⟨0, _⟩ => show (cfg4.win 0).index t (0 : Fin 2) * 400 + 1 * (j 0).val = t.val * 400 + (j 0).val; rw [e0]; omega
    | ⟨1, _⟩ => show (cfg4.win 0).index t (1 : Fin 2) * 500 + 1 * k.val = k.val; rw [e1]; omega
  · show V c (Pipeline.arrRef spec4 1) (((cfg4.win 1).blk t).view.emb (ix2 k (⟨(j 1).val, hq⟩ : Fin 400))) = V c (Pipeline.arrRef spec4 1) _
    refine congrArg (V c (Pipeline.arrRef spec4 1)) (funext fun a => Fin.ext ?_)
    match a with
    | ⟨0, _⟩ => show (cfg4.win 1).index t (0 : Fin 2) * 500 + 1 * k.val = k.val; rw [e2]; omega
    | ⟨1, _⟩ => show (cfg4.win 1).index t (1 : Fin 2) * 400 + 1 * (j 1).val = (j 1).val; rw [e3]; omega

theorem mem_blk4 (t : Fin cfg4.N) (i : S10000x400.Idx) :
    i ∈ ((cfg4.win 2).blk t).view.set ↔ ∀ a : Fin 2, (cfg4.win 2).index t a * S400x400.size a ≤ (i a).val ∧ (i a).val < (cfg4.win 2).index t a * S400x400.size a + S400x400.size a := by
  show i ∈ ((View.whole (Pipeline.arrRef spec4 2)).slice ((cfg4.win 2).rect t)).set ↔ _
  rw [View.set_slice_whole, Rect.mem_set_unit]
  exact Iff.rfl

theorem cover_arr4 (i : S10000x400.Idx) : ∃ t : Fin cfg4.N, (cfg4.win 2).flush t = true ∧ i ∈ ((cfg4.win 2).blk t).view.set := by
  have hi0 : (i 0).val < 10000 := (i 0).isLt
  have hi1 : (i 1).val < 400 := (i 1).isLt
  have hN : cfg4.N = 25 := N_4
  let t : Fin cfg4.N := ⟨(i 0).val / 400, by rw [hN]; omega⟩
  obtain ⟨-, -, -, -, e4, e5, hf, -⟩ := idx_facts4 t
  have e4' : (cfg4.win 2).index t (0 : Fin 2) = (i 0).val / 400 := e4
  refine ⟨t, hf, ?_⟩
  rw [mem_blk4]
  intro a
  match a with
  | ⟨0, _⟩ => show (cfg4.win 2).index t (0 : Fin 2) * 400 ≤ (i 0).val ∧ (i 0).val < (cfg4.win 2).index t (0 : Fin 2) * 400 + 400; rw [e4']; omega
  | ⟨1, _⟩ => show (cfg4.win 2).index t (1 : Fin 2) * 400 ≤ (i 1).val ∧ (i 1).val < (cfg4.win 2).index t (1 : Fin 2) * 400 + 400; rw [e5]; omega

theorem final4 (c : Dev nD) : ((dat4 (F := Ideal) V c).arrAt 2 cfg4.N : Cert.Spec.Mat 10000 400)
    = Cert.Spec.relu (Cert.Spec.mm (V c (Pipeline.arrRef spec4 0)) (V c (Pipeline.arrRef spec4 1))) :=
  (dat4 (F := Ideal) V c).arrAt_eq_of_cover 2 (Cert.Spec.relu (Cert.Spec.mm (blockA4 V c) (blockB4 V c))) (fun t _ => flushed4_eq V c t) cover_arr4

end

end Cert.KernelIdeal.Val

end
-- ==== Proof.KI.Val5.lean ====
import proofs.«110190_j59090160058610_1_alg».proof.Proof.KI.Reg5
import proofs.«110190_j59090160058610_1_alg».proof.Proof.KI.Val3

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

variable (V : (c : Dev nD) → (b : Ref sig .tc) → Buf (Elt Ideal) ((c : Thread nD τ).loc b))

theorem pay5_lt (t : Fin cfg5.N) : t.val < 50 := lt_of_lt_of_eq t.isLt N_5

theorem idx_facts5 : ∀ t : Fin cfg5.N, (cfg5.win 0).index t (0 : Fin 2) = t.val ∧ (cfg5.win 0).index t (1 : Fin 2) = 0
    ∧ (cfg5.win 1).index t (0 : Fin 2) = 0 ∧ (cfg5.win 1).index t (1 : Fin 2) = 0
    ∧ (cfg5.win 2).index t (0 : Fin 2) = t.val ∧ (cfg5.win 2).index t (1 : Fin 2) = 0 :=
  (by decide +kernel : ∀ t : Fin grid5.N, _)

theorem flushed5_pt : ∀ t : Fin cfg5.N, (cfg5.win 2).flush t = true :=
  (by decide +kernel : ∀ t : Fin grid5.N, _)

theorem blockA5 (c : Dev nD) (t : Fin cfg5.N) (p : Fin 200) (k : Fin 10000) (r : Fin 10000) (hr : r.val = t.val * 200 + p.val) :
    (iblk5 V c 0 t (ix2 p k) : EReal) = (V c (Pipeline.arrRef spec5 0) : Cert.Spec.Mat 10000 10000) (ix2 r k) := by
  obtain ⟨e0, e1, e2, e3, e4, e5⟩ := idx_facts5 t
  unfold iblk5
  rw [View.read_apply]
  exact congrArg (V c (Pipeline.arrRef spec5 0) : Cert.Spec.Mat 10000 10000) (funext fun a => Fin.ext (by
    match a with
    | ⟨0, _⟩ => show (cfg5.win 0).index t (0 : Fin 2) * 200 + 1 * p.val = r.val; rw [e0, hr]; omega
    | ⟨1, _⟩ => show (cfg5.win 0).index t (1 : Fin 2) * 10000 + 1 * k.val = k.val; rw [e1]; omega))

theorem blockB5 (c : Dev nD) (t : Fin cfg5.N) (k : Fin 10000) (q : Fin 400) :
    (iblk5 V c 1 t (ix2 k q) : EReal) = (V c (Pipeline.arrRef spec5 1) : Cert.Spec.Mat 10000 400) (ix2 k q) := by
  obtain ⟨e0, e1, e2, e3, e4, e5⟩ := idx_facts5 t
  unfold iblk5
  rw [View.read_apply]
  exact congrArg (V c (Pipeline.arrRef spec5 1) : Cert.Spec.Mat 10000 400) (funext fun a => Fin.ext (by
    match a with
    | ⟨0, _⟩ => show (cfg5.win 1).index t (0 : Fin 2) * 10000 + 1 * k.val = k.val; rw [e2]; omega
    | ⟨1, _⟩ => show (cfg5.win 1).index t (1 : Fin 2) * 400 + 1 * q.val = q.val; rw [e3]; omega))

theorem rowOf5 (t : Fin cfg5.N) (j : S200x400.Idx) :
    ((((cfg5.win 2).blk t).view.emb j) 0).val = t.val * 200 + (j 0).val ∧ ((((cfg5.win 2).blk t).view.emb j) 1).val = (j 1).val := by
  obtain ⟨e0, e1, e2, e3, e4, e5⟩ := idx_facts5 t
  constructor
  · show (cfg5.win 2).index t (0 : Fin 2) * 200 + 1 * (j 0).val = _; rw [e4]; omega
  · show (cfg5.win 2).index t (1 : Fin 2) * 400 + 1 * (j 1).val = _; rw [e5]; omega

theorem flushed5_eq (c : Dev nD) (t : Fin cfg5.N) :
    (dat5 (F := Ideal) V c).flushed 2 t = ((cfg5.win 2).blk t).view.read (Elt Ideal)
      (Cert.Spec.mm (V c (Pipeline.arrRef spec5 0) : Cert.Spec.Mat 10000 10000) (V c (Pipeline.arrRef spec5 1) : Cert.Spec.Mat 10000 400)) := by
  show (cfg5.win 2).cut (grid5.coords t) ((dat5 V c).after 2 t) = _
  rw [after5_2]
  unfold out3_2
  rw [View.canon_unit_zero hz3]
  simp only [View.ld_unit_zero (S := S200x10000) hz3, View.ld_unit_zero (S := S10000x400) hz3]
  funext j
  show (k3_pay1 (F := Ideal) (iblk5 V c 0 t) (iblk5 V c 1 t) j : EReal)
    = Cert.Spec.mm (V c (Pipeline.arrRef spec5 0) : Cert.Spec.Mat 10000 10000) (V c (Pipeline.arrRef spec5 1) : Cert.Spec.Mat 10000 400) (((cfg5.win 2).blk t).view.emb j)
  refine (congrArg (k3_pay1 (F := Ideal) (iblk5 V c 0 t) (iblk5 V c 1 t)) (eq_ix2 (n0 := 200) (n1 := 400) j)).trans ?_
  refine (pay3_apply (iblk5 V c 0 t) (iblk5 V c 1 t) (j 0) (j 1)).trans ?_
  unfold Cert.Spec.mm
  refine Finset.sum_congr rfl fun k _ => ?_
  obtain ⟨h0, h1⟩ := rowOf5 t j
  have hq : (((cfg5.win 2).blk t).view.emb j) 1 = (j 1 : Fin 400) := Fin.ext h1
  refine (congrArg₂ (fun (x y : EReal) => x * y) (blockA5 V c t (j 0) k ((((cfg5.win 2).blk t).view.emb j) 0) h0) (blockB5 V c t k (j 1))).trans ?_
  rw [hq]

theorem mem_blk5 (t : Fin cfg5.N) (i : S10000x400.Idx) :
    i ∈ ((cfg5.win 2).blk t).view.set ↔ ∀ a : Fin 2, (cfg5.win 2).index t a * S200x400.size a ≤ (i a).val ∧ (i a).val < (cfg5.win 2).index t a * S200x400.size a + S200x400.size a := by
  rw [show ((cfg5.win 2).blk t).view.set = ((cfg5.win 2).rect t).set from View.set_slice_whole _ _, Rect.mem_set_unit]
  exact Iff.rfl

theorem cover_arr5 (i : S10000x400.Idx) : ∃ t : Fin cfg5.N, (cfg5.win 2).flush t = true ∧ i ∈ ((cfg5.win 2).blk t).view.set := by
  have hi0 : (i 0).val < 10000 := (i 0).isLt
  have hi1 : (i 1).val < 400 := (i 1).isLt
  have hN : (i 0).val / 200 < cfg5.N := lt_of_lt_of_eq (show (i 0).val / 200 < 50 by omega) N_5.symm
  obtain ⟨e0, e1, e2, e3, e4, e5⟩ := idx_facts5 ⟨(i 0).val / 200, hN⟩
  refine ⟨⟨(i 0).val / 200, hN⟩, flushed5_pt _, ?_⟩
  rw [mem_blk5]
  intro a
  match a with
  | ⟨0, _⟩ =>
    show (cfg5.win 2).index ⟨(i 0).val / 200, hN⟩ (0 : Fin 2) * 200 ≤ (i 0).val ∧ (i 0).val < (cfg5.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg5.win 2).index ⟨(i 0).val / 200, hN⟩ (1 : Fin 2) * 400 ≤ (i 1).val ∧ (i 1).val < (cfg5.win 2).index ⟨(i 0).val / 200, hN⟩ (1 : Fin 2) * 400 + 400
    rw [e5]; omega

theorem final5 (c : Dev nD) :
    ((dat5 (F := Ideal) V c).arrAt 2 cfg5.N : Cert.Spec.Mat 10000 400)
      = Cert.Spec.mm (V c (Pipeline.arrRef spec5 0) : Cert.Spec.Mat 10000 10000) (V c (Pipeline.arrRef spec5 1) : Cert.Spec.Mat 10000 400) :=
  (dat5 V c).arrAt_eq_of_cover 2 _ (fun t _ => flushed5_eq V c t) cover_arr5

end Cert.KernelIdeal.Val

end
-- ==== Proof.KI.Val6.lean ====
import proofs.«110190_j59090160058610_1_alg».proof.Proof.KI.Reg6
import proofs.«110190_j59090160058610_1_alg».proof.Proof.KI.Val3

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

variable (V : (c : Dev nD) → (b : Ref sig .tc) → Buf (Elt Ideal) ((c : Thread nD τ).loc b))

theorem pay6_lt (t : Fin cfg6.N) : t.val < 50 := lt_of_lt_of_eq t.isLt N_6

theorem idx_facts6 : ∀ t : Fin cfg6.N, (cfg6.win 0).index t (0 : Fin 2) = t.val ∧ (cfg6.win 0).index t (1 : Fin 2) = 0
    ∧ (cfg6.win 1).index t (0 : Fin 2) = 0 ∧ (cfg6.win 1).index t (1 : Fin 2) = 0
    ∧ (cfg6.win 2).index t (0 : Fin 2) = t.val ∧ (cfg6.win 2).index t (1 : Fin 2) = 0 :=
  (by decide +kernel : ∀ t : Fin grid6.N, _)

theorem flushed6_pt : ∀ t : Fin cfg6.N, (cfg6.win 2).flush t = true :=
  (by decide +kernel : ∀ t : Fin grid6.N, _)

theorem blockA6 (c : Dev nD) (t : Fin cfg6.N) (p : Fin 200) (k : Fin 10000) (r : Fin 10000) (hr : r.val = t.val * 200 + p.val) :
    (iblk6 V c 0 t (ix2 p k) : EReal) = (V c (Pipeline.arrRef spec6 0) : Cert.Spec.Mat 10000 10000) (ix2 r k) := by
  obtain ⟨e0, e1, e2, e3, e4, e5⟩ := idx_facts6 t
  unfold iblk6
  rw [View.read_apply]
  exact congrArg (V c (Pipeline.arrRef spec6 0) : Cert.Spec.Mat 10000 10000) (funext fun a => Fin.ext (by
    match a with
    | ⟨0, _⟩ => show (cfg6.win 0).index t (0 : Fin 2) * 200 + 1 * p.val = r.val; rw [e0, hr]; omega
    | ⟨1, _⟩ => show (cfg6.win 0).index t (1 : Fin 2) * 10000 + 1 * k.val = k.val; rw [e1]; omega))

theorem blockB6 (c : Dev nD) (t : Fin cfg6.N) (k : Fin 10000) (q : Fin 400) :
    (iblk6 V c 1 t (ix2 k q) : EReal) = (V c (Pipeline.arrRef spec6 1) : Cert.Spec.Mat 10000 400) (ix2 k q) := by
  obtain ⟨e0, e1, e2, e3, e4, e5⟩ := idx_facts6 t
  unfold iblk6
  rw [View.read_apply]
  exact congrArg (V c (Pipeline.arrRef spec6 1) : Cert.Spec.Mat 10000 400) (funext fun a => Fin.ext (by
    match a with
    | ⟨0, _⟩ => show (cfg6.win 1).index t (0 : Fin 2) * 10000 + 1 * k.val = k.val; rw [e2]; omega
    | ⟨1, _⟩ => show (cfg6.win 1).index t (1 : Fin 2) * 400 + 1 * q.val = q.val; rw [e3]; omega))

theorem rowOf6 (t : Fin cfg6.N) (j : S200x400.Idx) :
    ((((cfg6.win 2).blk t).view.emb j) 0).val = t.val * 200 + (j 0).val ∧ ((((cfg6.win 2).blk t).view.emb j) 1).val = (j 1).val := by
  obtain ⟨e0, e1, e2, e3, e4, e5⟩ := idx_facts6 t
  constructor
  · show (cfg6.win 2).index t (0 : Fin 2) * 200 + 1 * (j 0).val = _; rw [e4]; omega
  · show (cfg6.win 2).index t (1 : Fin 2) * 400 + 1 * (j 1).val = _; rw [e5]; omega

theorem flushed6_eq (c : Dev nD) (t : Fin cfg6.N) :
    (dat6 (F := Ideal) V c).flushed 2 t = ((cfg6.win 2).blk t).view.read (Elt Ideal)
      (Cert.Spec.mm (V c (Pipeline.arrRef spec6 0) : Cert.Spec.Mat 10000 10000) (V c (Pipeline.arrRef spec6 1) : Cert.Spec.Mat 10000 400)) := by
  show (cfg6.win 2).cut (grid6.coords t) ((dat6 V c).after 2 t) = _
  rw [after6_2]
  unfold out3_2
  rw [View.canon_unit_zero hz3]
  simp only [View.ld_unit_zero (S := S200x10000) hz3, View.ld_unit_zero (S := S10000x400) hz3]
  funext j
  show (k3_pay1 (F := Ideal) (iblk6 V c 0 t) (iblk6 V c 1 t) j : EReal)
    = Cert.Spec.mm (V c (Pipeline.arrRef spec6 0) : Cert.Spec.Mat 10000 10000) (V c (Pipeline.arrRef spec6 1) : Cert.Spec.Mat 10000 400) (((cfg6.win 2).blk t).view.emb j)
  refine (congrArg (k3_pay1 (F := Ideal) (iblk6 V c 0 t) (iblk6 V c 1 t)) (eq_ix2 (n0 := 200) (n1 := 400) j)).trans ?_
  refine (pay3_apply (iblk6 V c 0 t) (iblk6 V c 1 t) (j 0) (j 1)).trans ?_
  unfold Cert.Spec.mm
  refine Finset.sum_congr rfl fun k _ => ?_
  obtain ⟨h0, h1⟩ := rowOf6 t j
  have hq : (((cfg6.win 2).blk t).view.emb j) 1 = (j 1 : Fin 400) := Fin.ext h1
  refine (congrArg₂ (fun (x y : EReal) => x * y) (blockA6 V c t (j 0) k ((((cfg6.win 2).blk t).view.emb j) 0) h0) (blockB6 V c t k (j 1))).trans ?_
  rw [hq]

theorem mem_blk6 (t : Fin cfg6.N) (i : S10000x400.Idx) :
    i ∈ ((cfg6.win 2).blk t).view.set ↔ ∀ a : Fin 2, (cfg6.win 2).index t a * S200x400.size a ≤ (i a).val ∧ (i a).val < (cfg6.win 2).index t a * S200x400.size a + S200x400.size a := by
  rw [show ((cfg6.win 2).blk t).view.set = ((cfg6.win 2).rect t).set from View.set_slice_whole _ _, Rect.mem_set_unit]
  exact Iff.rfl

theorem cover_arr6 (i : S10000x400.Idx) : ∃ t : Fin cfg6.N, (cfg6.win 2).flush t = true ∧ i ∈ ((cfg6.win 2).blk t).view.set := by
  have hi0 : (i 0).val < 10000 := (i 0).isLt
  have hi1 : (i 1).val < 400 := (i 1).isLt
  have hN : (i 0).val / 200 < cfg6.N := lt_of_lt_of_eq (show (i 0).val / 200 < 50 by omega) N_6.symm
  obtain ⟨e0, e1, e2, e3, e4, e5⟩ := idx_facts6 ⟨(i 0).val / 200, hN⟩
  refine ⟨⟨(i 0).val / 200, hN⟩, flushed6_pt _, ?_⟩
  rw [mem_blk6]
  intro a
  match a with
  | ⟨0, _⟩ =>
    show (cfg6.win 2).index ⟨(i 0).val / 200, hN⟩ (0 : Fin 2) * 200 ≤ (i 0).val ∧ (i 0).val < (cfg6.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg6.win 2).index ⟨(i 0).val / 200, hN⟩ (1 : Fin 2) * 400 ≤ (i 1).val ∧ (i 1).val < (cfg6.win 2).index ⟨(i 0).val / 200, hN⟩ (1 : Fin 2) * 400 + 400
    rw [e5]; omega

theorem final6 (c : Dev nD) :
    ((dat6 (F := Ideal) V c).arrAt 2 cfg6.N : Cert.Spec.Mat 10000 400)
      = Cert.Spec.mm (V c (Pipeline.arrRef spec6 0) : Cert.Spec.Mat 10000 10000) (V c (Pipeline.arrRef spec6 1) : Cert.Spec.Mat 10000 400) :=
  (dat6 V c).arrAt_eq_of_cover 2 _ (fun t _ => flushed6_eq V c t) cover_arr6

end Cert.KernelIdeal.Val

end
-- ==== Proof.KI.Val7.lean ====
import proofs.«110190_j59090160058610_1_alg».proof.Proof.KI.Reg7
import proofs.«110190_j59090160058610_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem lhs7_0 (i : S400x400.Idx) (q : dot_S400x1200_S1200x400_S400x400_1_0_0_1_n_n.contr.Idx) :
    (dot_S400x1200_S1200x400_S400x400_1_0_0_1_n_n.lhsIdx i q 0).val = (i 0).val := by
  unfold DotDims.lhsIdx
  rw [dif_neg (show ¬(0 : Fin S400x1200.rank) ∈ dot_S400x1200_S1200x400_S400x400_1_0_0_1_n_n.lhsBatch by decide), dif_pos (show (0 : Fin S400x1200.rank) ∈ dot_S400x1200_S1200x400_S400x400_1_0_0_1_n_n.lhsNonContracting by decide)]
  rfl

theorem lhs7_1 (i : S400x400.Idx) (q : dot_S400x1200_S1200x400_S400x400_1_0_0_1_n_n.contr.Idx) :
    (dot_S400x1200_S1200x400_S400x400_1_0_0_1_n_n.lhsIdx i q 1).val = (q ⟨0, by decide⟩).val :=
  dot_S400x1200_S1200x400_S400x400_1_0_0_1_n_n.lhsIdx_val_of_single rfl i q

theorem rhs7_0 (i : S400x400.Idx) (q : dot_S400x1200_S1200x400_S400x400_1_0_0_1_n_n.contr.Idx) :
    (dot_S400x1200_S1200x400_S400x400_1_0_0_1_n_n.rhsIdx i q 0).val = (q ⟨0, by decide⟩).val :=
  dot_S400x1200_S1200x400_S400x400_1_0_0_1_n_n.rhsIdx_val_of_single rfl i q

theorem rhs7_1 (i : S400x400.Idx) (q : dot_S400x1200_S1200x400_S400x400_1_0_0_1_n_n.contr.Idx) :
    (dot_S400x1200_S1200x400_S400x400_1_0_0_1_n_n.rhsIdx i q 1).val = (i 1).val := by
  unfold DotDims.rhsIdx
  rw [dif_neg (show ¬(1 : Fin S1200x400.rank) ∈ dot_S400x1200_S1200x400_S400x400_1_0_0_1_n_n.rhsBatch by decide), dif_pos (show (1 : Fin S1200x400.rank) ∈ dot_S400x1200_S1200x400_S400x400_1_0_0_1_n_n.rhsNonContracting by decide)]
  rfl

theorem mm7_apply (l : FVec Ideal S400x1200 .bf16) (r : FVec Ideal S1200x400 .bf16) (p : Fin 400) (q : Fin 400) :
    matmul dot_S400x1200_S1200x400_S400x400_1_0_0_1_n_n none l r (constant (F := Ideal) S400x400 .f32 0x00000000#32) (ix2 p q)
      = ∑ k : Fin 1200, l (ix2 p k) * r (ix2 k q) := by
  refine (Ideal.matmul_constant_zero_apply dot_S400x1200_S1200x400_S400x400_1_0_0_1_n_n none l r (ix2 p q)).trans ?_
  rw [← Equiv.sum_comp (contrEquiv1 dot_S400x1200_S1200x400_S400x400_1_0_0_1_n_n 1200 rfl rfl).symm]
  refine Finset.sum_congr rfl fun k _ => ?_
  have hk := contrEquiv1_symm_val dot_S400x1200_S1200x400_S400x400_1_0_0_1_n_n 1200 rfl rfl k
  have el : dot_S400x1200_S1200x400_S400x400_1_0_0_1_n_n.lhsIdx (ix2 p q) ((contrEquiv1 dot_S400x1200_S1200x400_S400x400_1_0_0_1_n_n 1200 rfl rfl).symm k) = ix2 p k := funext fun a => Fin.ext (by
    match a with
    | ⟨0, _⟩ => exact lhs7_0 _ _
    | ⟨1, _⟩ => exact (lhs7_1 _ _).trans hk)
  have er : dot_S400x1200_S1200x400_S400x400_1_0_0_1_n_n.rhsIdx (ix2 p q) ((contrEquiv1 dot_S400x1200_S1200x400_S400x400_1_0_0_1_n_n 1200 rfl rfl).symm k) = ix2 k q := funext fun a => Fin.ext (by
    match a with
    | ⟨0, _⟩ => exact (rhs7_0 _ _).trans hk
    | ⟨1, _⟩ => exact rhs7_1 _ _)
  rw [el, er]

theorem pay7_apply (x0 : Vec Ideal S400x1200 .bf16) (x1 : Vec Ideal S1200x400 .f32) (p : Fin 400) (q : Fin 400) :
    k7_pay1 x0 x1 (ix2 p q) = ∑ k : Fin 1200, x0 (ix2 p k) * x1 (ix2 k q) := by
  unfold k7_pay1
  simp only [shapeCast_self]
  refine (truncf_apply (ψ := FTy.bf16) _ bitsLt_bf16_f32 _).trans ?_
  exact mm7_apply x0 (truncf .bf16 x1 bitsLt_bf16_f32) p q

theorem hz7 : (![0, 0] : Fin 2 → Nat) = fun _ => 0 := funext fun a => by fin_cases a <;> rfl

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

abbrev whole7 (c : Dev nD) : Cert.Spec.Mat 10000 400 :=
  Cert.Spec.mm (V c (Pipeline.arrRef spec7 0) : Cert.Spec.Mat 10000 1200) (V c (Pipeline.arrRef spec7 1) : Cert.Spec.Mat 1200 400)

theorem blockA7 (c : Dev nD) (t : Fin cfg7.N) (p : Fin 400) (k : Fin 1200) (r : Fin 10000) (hr : r.val = 400 * t.val + p.val) :
    (iblk7 V c 0 t : Vec Ideal S400x1200 .bf16) (ix2 p k) = (V c (Pipeline.arrRef spec7 0) : Cert.Spec.Mat 10000 1200) (ix2 r k) := by
  obtain ⟨e0, e1, -⟩ := idx_facts7 t
  show V c (Pipeline.arrRef spec7 0) (((cfg7.win 0).blk t).view.emb (ix2 p k)) = V c (Pipeline.arrRef spec7 0) (ix2 r k)
  refine congrArg _ (funext fun a => Fin.ext ?_)
  match a with
  | ⟨0, _⟩ => show win7_0.index t (0 : Fin 2) * 400 + 1 * p.val = r.val; rw [e0, hr]; omega
  | ⟨1, _⟩ => show win7_0.index t (1 : Fin 2) * 1200 + 1 * k.val = k.val; rw [e1]; omega

theorem blockB7 (c : Dev nD) (t : Fin cfg7.N) (k : Fin 1200) (q : Fin 400) :
    (iblk7 V c 1 t : Vec Ideal S1200x400 .f32) (ix2 k q) = (V c (Pipeline.arrRef spec7 1) : Cert.Spec.Mat 1200 400) (ix2 k q) := by
  obtain ⟨-, -, e0, e1, -⟩ := idx_facts7 t
  show V c (Pipeline.arrRef spec7 1) (((cfg7.win 1).blk t).view.emb (ix2 k q)) = V c (Pipeline.arrRef spec7 1) (ix2 k q)
  refine congrArg _ (funext fun a => Fin.ext ?_)
  match a with
  | ⟨0, _⟩ => show win7_1.index t (0 : Fin 2) * 1200 + 1 * k.val = k.val; rw [e0]; omega
  | ⟨1, _⟩ => show win7_1.index t (1 : Fin 2) * 400 + 1 * q.val = q.val; rw [e1]; omega

theorem flushed7_eq (c : Dev nD) (t : Fin cfg7.N) :
    (dat7 (F := Ideal) V c).flushed 2 t = ((cfg7.win 2).blk t).view.read (Elt Ideal) (whole7 V c) := by
  show (cfg7.win 2).cut (grid7.coords t) ((dat7 V c).after 2 t) = _
  rw [after7_2]
  unfold out7_2
  rw [View.canon_unit_zero hz7]
  simp only [View.ld_unit_zero (S := S400x1200) hz7, View.ld_unit_zero (S := S1200x400) hz7]
  obtain ⟨-, -, -, -, e0, e1⟩ := idx_facts7 t
  have hN : grid7.N = 25 := N_7
  have ht : t.val < 25 := hN ▸ t.isLt
  funext j
  have hj0 : (j 0).val < 400 := (j 0).isLt
  have hj1 : (j 1).val < 400 := (j 1).isLt
  have ex : (cfg7.win 2).xinj (grid7.coords t) j = ix2 (⟨(j 0).val, hj0⟩ : Fin 400) (⟨(j 1).val, hj1⟩ : Fin 400) :=
    funext fun a => by match a with | ⟨0, _⟩ => rfl | ⟨1, _⟩ => rfl
  have ei : ((cfg7.win 2).blk t).view.emb j = ix2 (⟨400 * t.val + (j 0).val, by omega⟩ : Fin 10000) (⟨(j 1).val, hj1⟩ : Fin 400) :=
    funext fun a => Fin.ext (by
      match a with
      | ⟨0, _⟩ => show win7_2.index t (0 : Fin 2) * 400 + 1 * (j 0).val = 400 * t.val + (j 0).val; rw [e0]; omega
      | ⟨1, _⟩ => show win7_2.index t (1 : Fin 2) * 400 + 1 * (j 1).val = (j 1).val; rw [e1]; omega)
  show k7_pay1 (iblk7 V c 0 t) (iblk7 V c 1 t) ((cfg7.win 2).xinj (grid7.coords t) j) = whole7 V c (((cfg7.win 2).blk t).view.emb j)
  rw [ex, ei]
  refine (pay7_apply (iblk7 V c 0 t) (iblk7 V c 1 t) ⟨(j 0).val, hj0⟩ ⟨(j 1).val, hj1⟩).trans ?_
  refine Finset.sum_congr rfl fun k _ => congrArg₂ (· * ·) ?_ ?_
  · exact blockA7 V c t ⟨(j 0).val, hj0⟩ k ⟨400 * t.val + (j 0).val, by omega⟩ rfl
  · exact blockB7 V c t k ⟨(j 1).val, hj1⟩

theorem mem_blk7 (t : Fin cfg7.N) (i : S10000x400.Idx) :
    i ∈ ((cfg7.win 2).blk t).view.set ↔ ∀ a : Fin 2, win7_2.index t a * S400x400.size a ≤ (i a).val ∧ (i a).val < win7_2.index t a * S400x400.size a + S400x400.size a := by
  show i ∈ ((View.whole (Pipeline.arrRef spec7 2)).slice (win7_2.rect t)).set ↔ _
  rw [View.set_slice_whole, Rect.mem_set_unit]
  exact Iff.rfl

theorem cover_arr7 (i : S10000x400.Idx) : ∃ t : Fin cfg7.N, (cfg7.win 2).flush t = true ∧ i ∈ ((cfg7.win 2).blk t).view.set := by
  have hN : grid7.N = 25 := N_7
  have hi0 : (i 0).val < 10000 := (i 0).isLt
  have hi1 : (i 1).val < 400 := (i 1).isLt
  obtain ⟨t, ht⟩ : ∃ t : Fin cfg7.N, t.val = (i 0).val / 400 :=
    ⟨⟨(i 0).val / 400, by show (i 0).val / 400 < grid7.N; rw [hN]; omega⟩, rfl⟩
  obtain ⟨-, -, -, -, e0, e1⟩ := idx_facts7 t
  refine ⟨t, flush7_2 t, ?_⟩
  rw [mem_blk7]
  intro a
  match a with
  | ⟨0, _⟩ => show win7_2.index t (0 : Fin 2) * 400 ≤ (i 0).val ∧ (i 0).val < win7_2.index t (0 : Fin 2) * 400 + 400; rw [e0, ht]; omega
  | ⟨1, _⟩ => show win7_2.index t (1 : Fin 2) * 400 ≤ (i 1).val ∧ (i 1).val < win7_2.index t (1 : Fin 2) * 400 + 400; rw [e1]; omega

theorem final7 (c : Dev nD) :
    ((dat7 (F := Ideal) V c).arrAt 2 cfg7.N : Cert.Spec.Mat 10000 400)
      = Cert.Spec.mm (V c (Pipeline.arrRef spec7 0) : Cert.Spec.Mat 10000 1200) (V c (Pipeline.arrRef spec7 1) : Cert.Spec.Mat 1200 400) :=
  (dat7 (F := Ideal) V c).arrAt_eq_of_cover 2 (whole7 V c) (fun t _ => flushed7_eq V c t) cover_arr7

end Cert.KernelIdeal.Val

end
-- ==== Proof.KI.Val8.lean ====
import proofs.«110190_j59090160058610_1_alg».proof.Proof.KI.Reg8
import proofs.«110190_j59090160058610_1_alg».proof.Proof.KI.Val7

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

abbrev whole8 (c : Dev nD) : Cert.Spec.Mat 10000 400 :=
  Cert.Spec.mm (V c (Pipeline.arrRef spec8 0) : Cert.Spec.Mat 10000 1200) (V c (Pipeline.arrRef spec8 1) : Cert.Spec.Mat 1200 400)

theorem blockA8 (c : Dev nD) (t : Fin cfg8.N) (p : Fin 400) (k : Fin 1200) (r : Fin 10000) (hr : r.val = 400 * t.val + p.val) :
    (iblk8 V c 0 t : Vec Ideal S400x1200 .bf16) (ix2 p k) = (V c (Pipeline.arrRef spec8 0) : Cert.Spec.Mat 10000 1200) (ix2 r k) := by
  obtain ⟨e0, e1, -⟩ := idx_facts8 t
  show V c (Pipeline.arrRef spec8 0) (((cfg8.win 0).blk t).view.emb (ix2 p k)) = V c (Pipeline.arrRef spec8 0) (ix2 r k)
  refine congrArg _ (funext fun a => Fin.ext ?_)
  match a with
  | ⟨0, _⟩ => show win8_0.index t (0 : Fin 2) * 400 + 1 * p.val = r.val; rw [e0, hr]; omega
  | ⟨1, _⟩ => show win8_0.index t (1 : Fin 2) * 1200 + 1 * k.val = k.val; rw [e1]; omega

theorem blockB8 (c : Dev nD) (t : Fin cfg8.N) (k : Fin 1200) (q : Fin 400) :
    (iblk8 V c 1 t : Vec Ideal S1200x400 .f32) (ix2 k q) = (V c (Pipeline.arrRef spec8 1) : Cert.Spec.Mat 1200 400) (ix2 k q) := by
  obtain ⟨-, -, e0, e1, -⟩ := idx_facts8 t
  show V c (Pipeline.arrRef spec8 1) (((cfg8.win 1).blk t).view.emb (ix2 k q)) = V c (Pipeline.arrRef spec8 1) (ix2 k q)
  refine congrArg _ (funext fun a => Fin.ext ?_)
  match a with
  | ⟨0, _⟩ => show win8_1.index t (0 : Fin 2) * 1200 + 1 * k.val = k.val; rw [e0]; omega
  | ⟨1, _⟩ => show win8_1.index t (1 : Fin 2) * 400 + 1 * q.val = q.val; rw [e1]; omega

theorem flushed8_eq (c : Dev nD) (t : Fin cfg8.N) :
    (dat8 (F := Ideal) V c).flushed 2 t = ((cfg8.win 2).blk t).view.read (Elt Ideal) (whole8 V c) := by
  show (cfg8.win 2).cut (grid8.coords t) ((dat8 V c).after 2 t) = _
  rw [after8_2]
  unfold out7_2
  rw [View.canon_unit_zero hz7]
  simp only [View.ld_unit_zero (S := S400x1200) hz7, View.ld_unit_zero (S := S1200x400) hz7]
  obtain ⟨-, -, -, -, e0, e1⟩ := idx_facts8 t
  have hN : grid8.N = 25 := N_8
  have ht : t.val < 25 := hN ▸ t.isLt
  funext j
  have hj0 : (j 0).val < 400 := (j 0).isLt
  have hj1 : (j 1).val < 400 := (j 1).isLt
  have ex : (cfg8.win 2).xinj (grid8.coords t) j = ix2 (⟨(j 0).val, hj0⟩ : Fin 400) (⟨(j 1).val, hj1⟩ : Fin 400) :=
    funext fun a => by match a with | ⟨0, _⟩ => rfl | ⟨1, _⟩ => rfl
  have ei : ((cfg8.win 2).blk t).view.emb j = ix2 (⟨400 * t.val + (j 0).val, by omega⟩ : Fin 10000) (⟨(j 1).val, hj1⟩ : Fin 400) :=
    funext fun a => Fin.ext (by
      match a with
      | ⟨0, _⟩ => show win8_2.index t (0 : Fin 2) * 400 + 1 * (j 0).val = 400 * t.val + (j 0).val; rw [e0]; omega
      | ⟨1, _⟩ => show win8_2.index t (1 : Fin 2) * 400 + 1 * (j 1).val = (j 1).val; rw [e1]; omega)
  show k7_pay1 (iblk8 V c 0 t) (iblk8 V c 1 t) ((cfg8.win 2).xinj (grid8.coords t) j) = whole8 V c (((cfg8.win 2).blk t).view.emb j)
  rw [ex, ei]
  refine (pay7_apply (iblk8 V c 0 t) (iblk8 V c 1 t) ⟨(j 0).val, hj0⟩ ⟨(j 1).val, hj1⟩).trans ?_
  refine Finset.sum_congr rfl fun k _ => congrArg₂ (· * ·) ?_ ?_
  · exact blockA8 V c t ⟨(j 0).val, hj0⟩ k ⟨400 * t.val + (j 0).val, by omega⟩ rfl
  · exact blockB8 V c t k ⟨(j 1).val, hj1⟩

theorem mem_blk8 (t : Fin cfg8.N) (i : S10000x400.Idx) :
    i ∈ ((cfg8.win 2).blk t).view.set ↔ ∀ a : Fin 2, win8_2.index t a * S400x400.size a ≤ (i a).val ∧ (i a).val < win8_2.index t a * S400x400.size a + S400x400.size a := by
  show i ∈ ((View.whole (Pipeline.arrRef spec8 2)).slice (win8_2.rect t)).set ↔ _
  rw [View.set_slice_whole, Rect.mem_set_unit]
  exact Iff.rfl

theorem cover_arr8 (i : S10000x400.Idx) : ∃ t : Fin cfg8.N, (cfg8.win 2).flush t = true ∧ i ∈ ((cfg8.win 2).blk t).view.set := by
  have hN : grid8.N = 25 := N_8
  have hi0 : (i 0).val < 10000 := (i 0).isLt
  have hi1 : (i 1).val < 400 := (i 1).isLt
  obtain ⟨t, ht⟩ : ∃ t : Fin cfg8.N, t.val = (i 0).val / 400 :=
    ⟨⟨(i 0).val / 400, by show (i 0).val / 400 < grid8.N; rw [hN]; omega⟩, rfl⟩
  obtain ⟨-, -, -, -, e0, e1⟩ := idx_facts8 t
  refine ⟨t, flush8_2 t, ?_⟩
  rw [mem_blk8]
  intro a
  match a with
  | ⟨0, _⟩ => show win8_2.index t (0 : Fin 2) * 400 ≤ (i 0).val ∧ (i 0).val < win8_2.index t (0 : Fin 2) * 400 + 400; rw [e0, ht]; omega
  | ⟨1, _⟩ => show win8_2.index t (1 : Fin 2) * 400 ≤ (i 1).val ∧ (i 1).val < win8_2.index t (1 : Fin 2) * 400 + 400; rw [e1]; omega

theorem final8 (c : Dev nD) :
    ((dat8 (F := Ideal) V c).arrAt 2 cfg8.N : Cert.Spec.Mat 10000 400)
      = Cert.Spec.mm (V c (Pipeline.arrRef spec8 0) : Cert.Spec.Mat 10000 1200) (V c (Pipeline.arrRef spec8 1) : Cert.Spec.Mat 1200 400) :=
  (dat8 (F := Ideal) V c).arrAt_eq_of_cover 2 (whole8 V c) (fun t _ => flushed8_eq V c t) cover_arr8

end Cert.KernelIdeal.Val

end
-- ==== Proof.KI.Val9.lean ====
import proofs.«110190_j59090160058610_1_alg».proof.Proof.KI.Reg9
import proofs.«110190_j59090160058610_1_alg».proof.Proof.KI.Val3

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

variable (V : (c : Dev nD) → (b : Ref sig .tc) → Buf (Elt Ideal) ((c : Thread nD τ).loc b))

theorem pay9_lt (t : Fin cfg9.N) : t.val < 50 := lt_of_lt_of_eq t.isLt N_9

theorem idx_facts9 : ∀ t : Fin cfg9.N, (cfg9.win 0).index t (0 : Fin 2) = t.val ∧ (cfg9.win 0).index t (1 : Fin 2) = 0
    ∧ (cfg9.win 1).index t (0 : Fin 2) = 0 ∧ (cfg9.win 1).index t (1 : Fin 2) = 0
    ∧ (cfg9.win 2).index t (0 : Fin 2) = t.val ∧ (cfg9.win 2).index t (1 : Fin 2) = 0 :=
  (by decide +kernel : ∀ t : Fin grid9.N, _)

theorem flushed9_pt : ∀ t : Fin cfg9.N, (cfg9.win 2).flush t = true :=
  (by decide +kernel : ∀ t : Fin grid9.N, _)

theorem blockA9 (c : Dev nD) (t : Fin cfg9.N) (p : Fin 200) (k : Fin 10000) (r : Fin 10000) (hr : r.val = t.val * 200 + p.val) :
    (iblk9 V c 0 t (ix2 p k) : EReal) = (V c (Pipeline.arrRef spec9 0) : Cert.Spec.Mat 10000 10000) (ix2 r k) := by
  obtain ⟨e0, e1, e2, e3, e4, e5⟩ := idx_facts9 t
  unfold iblk9
  rw [View.read_apply]
  exact congrArg (V c (Pipeline.arrRef spec9 0) : Cert.Spec.Mat 10000 10000) (funext fun a => Fin.ext (by
    match a with
    | ⟨0, _⟩ => show (cfg9.win 0).index t (0 : Fin 2) * 200 + 1 * p.val = r.val; rw [e0, hr]; omega
    | ⟨1, _⟩ => show (cfg9.win 0).index t (1 : Fin 2) * 10000 + 1 * k.val = k.val; rw [e1]; omega))

theorem blockB9 (c : Dev nD) (t : Fin cfg9.N) (k : Fin 10000) (q : Fin 400) :
    (iblk9 V c 1 t (ix2 k q) : EReal) = (V c (Pipeline.arrRef spec9 1) : Cert.Spec.Mat 10000 400) (ix2 k q) := by
  obtain ⟨e0, e1, e2, e3, e4, e5⟩ := idx_facts9 t
  unfold iblk9
  rw [View.read_apply]
  exact congrArg (V c (Pipeline.arrRef spec9 1) : Cert.Spec.Mat 10000 400) (funext fun a => Fin.ext (by
    match a with
    | ⟨0, _⟩ => show (cfg9.win 1).index t (0 : Fin 2) * 10000 + 1 * k.val = k.val; rw [e2]; omega
    | ⟨1, _⟩ => show (cfg9.win 1).index t (1 : Fin 2) * 400 + 1 * q.val = q.val; rw [e3]; omega))

theorem rowOf9 (t : Fin cfg9.N) (j : S200x400.Idx) :
    ((((cfg9.win 2).blk t).view.emb j) 0).val = t.val * 200 + (j 0).val ∧ ((((cfg9.win 2).blk t).view.emb j) 1).val = (j 1).val := by
  obtain ⟨e0, e1, e2, e3, e4, e5⟩ := idx_facts9 t
  constructor
  · show (cfg9.win 2).index t (0 : Fin 2) * 200 + 1 * (j 0).val = _; rw [e4]; omega
  · show (cfg9.win 2).index t (1 : Fin 2) * 400 + 1 * (j 1).val = _; rw [e5]; omega

theorem flushed9_eq (c : Dev nD) (t : Fin cfg9.N) :
    (dat9 (F := Ideal) V c).flushed 2 t = ((cfg9.win 2).blk t).view.read (Elt Ideal)
      (Cert.Spec.mm (V c (Pipeline.arrRef spec9 0) : Cert.Spec.Mat 10000 10000) (V c (Pipeline.arrRef spec9 1) : Cert.Spec.Mat 10000 400)) := by
  show (cfg9.win 2).cut (grid9.coords t) ((dat9 V c).after 2 t) = _
  rw [after9_2]
  unfold out3_2
  rw [View.canon_unit_zero hz3]
  simp only [View.ld_unit_zero (S := S200x10000) hz3, View.ld_unit_zero (S := S10000x400) hz3]
  funext j
  show (k3_pay1 (F := Ideal) (iblk9 V c 0 t) (iblk9 V c 1 t) j : EReal)
    = Cert.Spec.mm (V c (Pipeline.arrRef spec9 0) : Cert.Spec.Mat 10000 10000) (V c (Pipeline.arrRef spec9 1) : Cert.Spec.Mat 10000 400) (((cfg9.win 2).blk t).view.emb j)
  refine (congrArg (k3_pay1 (F := Ideal) (iblk9 V c 0 t) (iblk9 V c 1 t)) (eq_ix2 (n0 := 200) (n1 := 400) j)).trans ?_
  refine (pay3_apply (iblk9 V c 0 t) (iblk9 V c 1 t) (j 0) (j 1)).trans ?_
  unfold Cert.Spec.mm
  refine Finset.sum_congr rfl fun k _ => ?_
  obtain ⟨h0, h1⟩ := rowOf9 t j
  have hq : (((cfg9.win 2).blk t).view.emb j) 1 = (j 1 : Fin 400) := Fin.ext h1
  refine (congrArg₂ (fun (x y : EReal) => x * y) (blockA9 V c t (j 0) k ((((cfg9.win 2).blk t).view.emb j) 0) h0) (blockB9 V c t k (j 1))).trans ?_
  rw [hq]

theorem mem_blk9 (t : Fin cfg9.N) (i : S10000x400.Idx) :
    i ∈ ((cfg9.win 2).blk t).view.set ↔ ∀ a : Fin 2, (cfg9.win 2).index t a * S200x400.size a ≤ (i a).val ∧ (i a).val < (cfg9.win 2).index t a * S200x400.size a + S200x400.size a := by
  rw [show ((cfg9.win 2).blk t).view.set = ((cfg9.win 2).rect t).set from View.set_slice_whole _ _, Rect.mem_set_unit]
  exact Iff.rfl

theorem cover_arr9 (i : S10000x400.Idx) : ∃ t : Fin cfg9.N, (cfg9.win 2).flush t = true ∧ i ∈ ((cfg9.win 2).blk t).view.set := by
  have hi0 : (i 0).val < 10000 := (i 0).isLt
  have hi1 : (i 1).val < 400 := (i 1).isLt
  have hN : (i 0).val / 200 < cfg9.N := lt_of_lt_of_eq (show (i 0).val / 200 < 50 by omega) N_9.symm
  obtain ⟨e0, e1, e2, e3, e4, e5⟩ := idx_facts9 ⟨(i 0).val / 200, hN⟩
  refine ⟨⟨(i 0).val / 200, hN⟩, flushed9_pt _, ?_⟩
  rw [mem_blk9]
  intro a
  match a with
  | ⟨0, _⟩ =>
    show (cfg9.win 2).index ⟨(i 0).val / 200, hN⟩ (0 : Fin 2) * 200 ≤ (i 0).val ∧ (i 0).val < (cfg9.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg9.win 2).index ⟨(i 0).val / 200, hN⟩ (1 : Fin 2) * 400 ≤ (i 1).val ∧ (i 1).val < (cfg9.win 2).index ⟨(i 0).val / 200, hN⟩ (1 : Fin 2) * 400 + 400
    rw [e5]; omega

theorem final9 (c : Dev nD) :
    ((dat9 (F := Ideal) V c).arrAt 2 cfg9.N : Cert.Spec.Mat 10000 400)
      = Cert.Spec.mm (V c (Pipeline.arrRef spec9 0) : Cert.Spec.Mat 10000 10000) (V c (Pipeline.arrRef spec9 1) : Cert.Spec.Mat 10000 400) :=
  (dat9 V c).arrAt_eq_of_cover 2 _ (fun t _ => flushed9_eq V c t) cover_arr9

end Cert.KernelIdeal.Val

end
-- ==== Proof.KI.Val10.lean ====
import proofs.«110190_j59090160058610_1_alg».proof.Proof.KI.Reg10
import proofs.«110190_j59090160058610_1_alg».proof.Proof.KI.Val7

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

abbrev whole10 (c : Dev nD) : Cert.Spec.Mat 10000 400 :=
  Cert.Spec.mm (V c (Pipeline.arrRef spec10 0) : Cert.Spec.Mat 10000 1200) (V c (Pipeline.arrRef spec10 1) : Cert.Spec.Mat 1200 400)

theorem blockA10 (c : Dev nD) (t : Fin cfg10.N) (p : Fin 400) (k : Fin 1200) (r : Fin 10000) (hr : r.val = 400 * t.val + p.val) :
    (iblk10 V c 0 t : Vec Ideal S400x1200 .bf16) (ix2 p k) = (V c (Pipeline.arrRef spec10 0) : Cert.Spec.Mat 10000 1200) (ix2 r k) := by
  obtain ⟨e0, e1, -⟩ := idx_facts10 t
  show V c (Pipeline.arrRef spec10 0) (((cfg10.win 0).blk t).view.emb (ix2 p k)) = V c (Pipeline.arrRef spec10 0) (ix2 r k)
  refine congrArg _ (funext fun a => Fin.ext ?_)
  match a with
  | ⟨0, _⟩ => show win10_0.index t (0 : Fin 2) * 400 + 1 * p.val = r.val; rw [e0, hr]; omega
  | ⟨1, _⟩ => show win10_0.index t (1 : Fin 2) * 1200 + 1 * k.val = k.val; rw [e1]; omega

theorem blockB10 (c : Dev nD) (t : Fin cfg10.N) (k : Fin 1200) (q : Fin 400) :
    (iblk10 V c 1 t : Vec Ideal S1200x400 .f32) (ix2 k q) = (V c (Pipeline.arrRef spec10 1) : Cert.Spec.Mat 1200 400) (ix2 k q) := by
  obtain ⟨-, -, e0, e1, -⟩ := idx_facts10 t
  show V c (Pipeline.arrRef spec10 1) (((cfg10.win 1).blk t).view.emb (ix2 k q)) = V c (Pipeline.arrRef spec10 1) (ix2 k q)
  refine congrArg _ (funext fun a => Fin.ext ?_)
  match a with
  | ⟨0, _⟩ => show win10_1.index t (0 : Fin 2) * 1200 + 1 * k.val = k.val; rw [e0]; omega
  | ⟨1, _⟩ => show win10_1.index t (1 : Fin 2) * 400 + 1 * q.val = q.val; rw [e1]; omega

theorem flushed10_eq (c : Dev nD) (t : Fin cfg10.N) :
    (dat10 (F := Ideal) V c).flushed 2 t = ((cfg10.win 2).blk t).view.read (Elt Ideal) (whole10 V c) := by
  show (cfg10.win 2).cut (grid10.coords t) ((dat10 V c).after 2 t) = _
  rw [after10_2]
  unfold out7_2
  rw [View.canon_unit_zero hz7]
  simp only [View.ld_unit_zero (S := S400x1200) hz7, View.ld_unit_zero (S := S1200x400) hz7]
  obtain ⟨-, -, -, -, e0, e1⟩ := idx_facts10 t
  have hN : grid10.N = 25 := N_10
  have ht : t.val < 25 := hN ▸ t.isLt
  funext j
  have hj0 : (j 0).val < 400 := (j 0).isLt
  have hj1 : (j 1).val < 400 := (j 1).isLt
  have ex : (cfg10.win 2).xinj (grid10.coords t) j = ix2 (⟨(j 0).val, hj0⟩ : Fin 400) (⟨(j 1).val, hj1⟩ : Fin 400) :=
    funext fun a => by match a with | ⟨0, _⟩ => rfl | ⟨1, _⟩ => rfl
  have ei : ((cfg10.win 2).blk t).view.emb j = ix2 (⟨400 * t.val + (j 0).val, by omega⟩ : Fin 10000) (⟨(j 1).val, hj1⟩ : Fin 400) :=
    funext fun a => Fin.ext (by
      match a with
      | ⟨0, _⟩ => show win10_2.index t (0 : Fin 2) * 400 + 1 * (j 0).val = 400 * t.val + (j 0).val; rw [e0]; omega
      | ⟨1, _⟩ => show win10_2.index t (1 : Fin 2) * 400 + 1 * (j 1).val = (j 1).val; rw [e1]; omega)
  show k7_pay1 (iblk10 V c 0 t) (iblk10 V c 1 t) ((cfg10.win 2).xinj (grid10.coords t) j) = whole10 V c (((cfg10.win 2).blk t).view.emb j)
  rw [ex, ei]
  refine (pay7_apply (iblk10 V c 0 t) (iblk10 V c 1 t) ⟨(j 0).val, hj0⟩ ⟨(j 1).val, hj1⟩).trans ?_
  refine Finset.sum_congr rfl fun k _ => congrArg₂ (· * ·) ?_ ?_
  · exact blockA10 V c t ⟨(j 0).val, hj0⟩ k ⟨400 * t.val + (j 0).val, by omega⟩ rfl
  · exact blockB10 V c t k ⟨(j 1).val, hj1⟩

theorem mem_blk10 (t : Fin cfg10.N) (i : S10000x400.Idx) :
    i ∈ ((cfg10.win 2).blk t).view.set ↔ ∀ a : Fin 2, win10_2.index t a * S400x400.size a ≤ (i a).val ∧ (i a).val < win10_2.index t a * S400x400.size a + S400x400.size a := by
  show i ∈ ((View.whole (Pipeline.arrRef spec10 2)).slice (win10_2.rect t)).set ↔ _
  rw [View.set_slice_whole, Rect.mem_set_unit]
  exact Iff.rfl

theorem cover_arr10 (i : S10000x400.Idx) : ∃ t : Fin cfg10.N, (cfg10.win 2).flush t = true ∧ i ∈ ((cfg10.win 2).blk t).view.set := by
  have hN : grid10.N = 25 := N_10
  have hi0 : (i 0).val < 10000 := (i 0).isLt
  have hi1 : (i 1).val < 400 := (i 1).isLt
  obtain ⟨t, ht⟩ : ∃ t : Fin cfg10.N, t.val = (i 0).val / 400 :=
    ⟨⟨(i 0).val / 400, by show (i 0).val / 400 < grid10.N; rw [hN]; omega⟩, rfl⟩
  obtain ⟨-, -, -, -, e0, e1⟩ := idx_facts10 t
  refine ⟨t, flush10_2 t, ?_⟩
  rw [mem_blk10]
  intro a
  match a with
  | ⟨0, _⟩ => show win10_2.index t (0 : Fin 2) * 400 ≤ (i 0).val ∧ (i 0).val < win10_2.index t (0 : Fin 2) * 400 + 400; rw [e0, ht]; omega
  | ⟨1, _⟩ => show win10_2.index t (1 : Fin 2) * 400 ≤ (i 1).val ∧ (i 1).val < win10_2.index t (1 : Fin 2) * 400 + 400; rw [e1]; omega

theorem final10 (c : Dev nD) :
    ((dat10 (F := Ideal) V c).arrAt 2 cfg10.N : Cert.Spec.Mat 10000 400)
      = Cert.Spec.mm (V c (Pipeline.arrRef spec10 0) : Cert.Spec.Mat 10000 1200) (V c (Pipeline.arrRef spec10 1) : Cert.Spec.Mat 1200 400) :=
  (dat10 (F := Ideal) V c).arrAt_eq_of_cover 2 (whole10 V c) (fun t _ => flushed10_eq V c t) cover_arr10

end Cert.KernelIdeal.Val

end
-- ==== Proof.KI.Val11.lean ====
import proofs.«110190_j59090160058610_1_alg».proof.Proof.KI.Reg11
import proofs.«110190_j59090160058610_1_alg».proof.Proof.KI.Val3

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

variable (V : (c : Dev nD) → (b : Ref sig .tc) → Buf (Elt Ideal) ((c : Thread nD τ).loc b))

theorem pay11_lt (t : Fin cfg11.N) : t.val < 50 := lt_of_lt_of_eq t.isLt N_11

theorem idx_facts11 : ∀ t : Fin cfg11.N, (cfg11.win 0).index t (0 : Fin 2) = t.val ∧ (cfg11.win 0).index t (1 : Fin 2) = 0
    ∧ (cfg11.win 1).index t (0 : Fin 2) = 0 ∧ (cfg11.win 1).index t (1 : Fin 2) = 0
    ∧ (cfg11.win 2).index t (0 : Fin 2) = t.val ∧ (cfg11.win 2).index t (1 : Fin 2) = 0 :=
  (by decide +kernel : ∀ t : Fin grid11.N, _)

theorem flushed11_pt : ∀ t : Fin cfg11.N, (cfg11.win 2).flush t = true :=
  (by decide +kernel : ∀ t : Fin grid11.N, _)

theorem blockA11 (c : Dev nD) (t : Fin cfg11.N) (p : Fin 200) (k : Fin 10000) (r : Fin 10000) (hr : r.val = t.val * 200 + p.val) :
    (iblk11 V c 0 t (ix2 p k) : EReal) = (V c (Pipeline.arrRef spec11 0) : Cert.Spec.Mat 10000 10000) (ix2 r k) := by
  obtain ⟨e0, e1, e2, e3, e4, e5⟩ := idx_facts11 t
  unfold iblk11
  rw [View.read_apply]
  exact congrArg (V c (Pipeline.arrRef spec11 0) : Cert.Spec.Mat 10000 10000) (funext fun a => Fin.ext (by
    match a with
    | ⟨0, _⟩ => show (cfg11.win 0).index t (0 : Fin 2) * 200 + 1 * p.val = r.val; rw [e0, hr]; omega
    | ⟨1, _⟩ => show (cfg11.win 0).index t (1 : Fin 2) * 10000 + 1 * k.val = k.val; rw [e1]; omega))

theorem blockB11 (c : Dev nD) (t : Fin cfg11.N) (k : Fin 10000) (q : Fin 400) :
    (iblk11 V c 1 t (ix2 k q) : EReal) = (V c (Pipeline.arrRef spec11 1) : Cert.Spec.Mat 10000 400) (ix2 k q) := by
  obtain ⟨e0, e1, e2, e3, e4, e5⟩ := idx_facts11 t
  unfold iblk11
  rw [View.read_apply]
  exact congrArg (V c (Pipeline.arrRef spec11 1) : Cert.Spec.Mat 10000 400) (funext fun a => Fin.ext (by
    match a with
    | ⟨0, _⟩ => show (cfg11.win 1).index t (0 : Fin 2) * 10000 + 1 * k.val = k.val; rw [e2]; omega
    | ⟨1, _⟩ => show (cfg11.win 1).index t (1 : Fin 2) * 400 + 1 * q.val = q.val; rw [e3]; omega))

theorem rowOf11 (t : Fin cfg11.N) (j : S200x400.Idx) :
    ((((cfg11.win 2).blk t).view.emb j) 0).val = t.val * 200 + (j 0).val ∧ ((((cfg11.win 2).blk t).view.emb j) 1).val = (j 1).val := by
  obtain ⟨e0, e1, e2, e3, e4, e5⟩ := idx_facts11 t
  constructor
  · show (cfg11.win 2).index t (0 : Fin 2) * 200 + 1 * (j 0).val = _; rw [e4]; omega
  · show (cfg11.win 2).index t (1 : Fin 2) * 400 + 1 * (j 1).val = _; rw [e5]; omega

theorem flushed11_eq (c : Dev nD) (t : Fin cfg11.N) :
    (dat11 (F := Ideal) V c).flushed 2 t = ((cfg11.win 2).blk t).view.read (Elt Ideal)
      (Cert.Spec.mm (V c (Pipeline.arrRef spec11 0) : Cert.Spec.Mat 10000 10000) (V c (Pipeline.arrRef spec11 1) : Cert.Spec.Mat 10000 400)) := by
  show (cfg11.win 2).cut (grid11.coords t) ((dat11 V c).after 2 t) = _
  rw [after11_2]
  unfold out3_2
  rw [View.canon_unit_zero hz3]
  simp only [View.ld_unit_zero (S := S200x10000) hz3, View.ld_unit_zero (S := S10000x400) hz3]
  funext j
  show (k3_pay1 (F := Ideal) (iblk11 V c 0 t) (iblk11 V c 1 t) j : EReal)
    = Cert.Spec.mm (V c (Pipeline.arrRef spec11 0) : Cert.Spec.Mat 10000 10000) (V c (Pipeline.arrRef spec11 1) : Cert.Spec.Mat 10000 400) (((cfg11.win 2).blk t).view.emb j)
  refine (congrArg (k3_pay1 (F := Ideal) (iblk11 V c 0 t) (iblk11 V c 1 t)) (eq_ix2 (n0 := 200) (n1 := 400) j)).trans ?_
  refine (pay3_apply (iblk11 V c 0 t) (iblk11 V c 1 t) (j 0) (j 1)).trans ?_
  unfold Cert.Spec.mm
  refine Finset.sum_congr rfl fun k _ => ?_
  obtain ⟨h0, h1⟩ := rowOf11 t j
  have hq : (((cfg11.win 2).blk t).view.emb j) 1 = (j 1 : Fin 400) := Fin.ext h1
  refine (congrArg₂ (fun (x y : EReal) => x * y) (blockA11 V c t (j 0) k ((((cfg11.win 2).blk t).view.emb j) 0) h0) (blockB11 V c t k (j 1))).trans ?_
  rw [hq]

theorem mem_blk11 (t : Fin cfg11.N) (i : S10000x400.Idx) :
    i ∈ ((cfg11.win 2).blk t).view.set ↔ ∀ a : Fin 2, (cfg11.win 2).index t a * S200x400.size a ≤ (i a).val ∧ (i a).val < (cfg11.win 2).index t a * S200x400.size a + S200x400.size a := by
  rw [show ((cfg11.win 2).blk t).view.set = ((cfg11.win 2).rect t).set from View.set_slice_whole _ _, Rect.mem_set_unit]
  exact Iff.rfl

theorem cover_arr11 (i : S10000x400.Idx) : ∃ t : Fin cfg11.N, (cfg11.win 2).flush t = true ∧ i ∈ ((cfg11.win 2).blk t).view.set := by
  have hi0 : (i 0).val < 10000 := (i 0).isLt
  have hi1 : (i 1).val < 400 := (i 1).isLt
  have hN : (i 0).val / 200 < cfg11.N := lt_of_lt_of_eq (show (i 0).val / 200 < 50 by omega) N_11.symm
  obtain ⟨e0, e1, e2, e3, e4, e5⟩ := idx_facts11 ⟨(i 0).val / 200, hN⟩
  refine ⟨⟨(i 0).val / 200, hN⟩, flushed11_pt _, ?_⟩
  rw [mem_blk11]
  intro a
  match a with
  | ⟨0, _⟩ =>
    show (cfg11.win 2).index ⟨(i 0).val / 200, hN⟩ (0 : Fin 2) * 200 ≤ (i 0).val ∧ (i 0).val < (cfg11.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg11.win 2).index ⟨(i 0).val / 200, hN⟩ (1 : Fin 2) * 400 ≤ (i 1).val ∧ (i 1).val < (cfg11.win 2).index ⟨(i 0).val / 200, hN⟩ (1 : Fin 2) * 400 + 400
    rw [e5]; omega

theorem final11 (c : Dev nD) :
    ((dat11 (F := Ideal) V c).arrAt 2 cfg11.N : Cert.Spec.Mat 10000 400)
      = Cert.Spec.mm (V c (Pipeline.arrRef spec11 0) : Cert.Spec.Mat 10000 10000) (V c (Pipeline.arrRef spec11 1) : Cert.Spec.Mat 10000 400) :=
  (dat11 V c).arrAt_eq_of_cover 2 _ (fun t _ => flushed11_eq V c t) cover_arr11

end Cert.KernelIdeal.Val

end
-- ==== Proof.KI.Val12.lean ====
import proofs.«110190_j59090160058610_1_alg».proof.Proof.KI.Reg12
import proofs.«110190_j59090160058610_1_alg».proof.Proof.KI.Val3

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx

variable (V : (c : Dev nD) → (b : Ref sig .tc) → Buf (Elt Ideal) ((c : Thread nD τ).loc b))

theorem pay12_lt (t : Fin cfg12.N) : t.val < 50 := lt_of_lt_of_eq t.isLt N_12

theorem idx_facts12 : ∀ t : Fin cfg12.N, (cfg12.win 0).index t (0 : Fin 2) = t.val ∧ (cfg12.win 0).index t (1 : Fin 2) = 0
    ∧ (cfg12.win 1).index t (0 : Fin 2) = 0 ∧ (cfg12.win 1).index t (1 : Fin 2) = 0
    ∧ (cfg12.win 2).index t (0 : Fin 2) = t.val ∧ (cfg12.win 2).index t (1 : Fin 2) = 0 :=
  (by decide +kernel : ∀ t : Fin grid12.N, _)

theorem flushed12_pt : ∀ t : Fin cfg12.N, (cfg12.win 2).flush t = true :=
  (by decide +kernel : ∀ t : Fin grid12.N, _)

theorem blockA12 (c : Dev nD) (t : Fin cfg12.N) (p : Fin 200) (k : Fin 10000) (r : Fin 10000) (hr : r.val = t.val * 200 + p.val) :
    (iblk12 V c 0 t (ix2 p k) : EReal) = (V c (Pipeline.arrRef spec12 0) : Cert.Spec.Mat 10000 10000) (ix2 r k) := by
  obtain ⟨e0, e1, e2, e3, e4, e5⟩ := idx_facts12 t
  unfold iblk12
  rw [View.read_apply]
  exact congrArg (V c (Pipeline.arrRef spec12 0) : Cert.Spec.Mat 10000 10000) (funext fun a => Fin.ext (by
    match a with
    | ⟨0, _⟩ => show (cfg12.win 0).index t (0 : Fin 2) * 200 + 1 * p.val = r.val; rw [e0, hr]; omega
    | ⟨1, _⟩ => show (cfg12.win 0).index t (1 : Fin 2) * 10000 + 1 * k.val = k.val; rw [e1]; omega))

theorem blockB12 (c : Dev nD) (t : Fin cfg12.N) (k : Fin 10000) (q : Fin 400) :
    (iblk12 V c 1 t (ix2 k q) : EReal) = (V c (Pipeline.arrRef spec12 1) : Cert.Spec.Mat 10000 400) (ix2 k q) := by
  obtain ⟨e0, e1, e2, e3, e4, e5⟩ := idx_facts12 t
  unfold iblk12
  rw [View.read_apply]
  exact congrArg (V c (Pipeline.arrRef spec12 1) : Cert.Spec.Mat 10000 400) (funext fun a => Fin.ext (by
    match a with
    | ⟨0, _⟩ => show (cfg12.win 1).index t (0 : Fin 2) * 10000 + 1 * k.val = k.val; rw [e2]; omega
    | ⟨1, _⟩ => show (cfg12.win 1).index t (1 : Fin 2) * 400 + 1 * q.val = q.val; rw [e3]; omega))

theorem rowOf12 (t : Fin cfg12.N) (j : S200x400.Idx) :
    ((((cfg12.win 2).blk t).view.emb j) 0).val = t.val * 200 + (j 0).val ∧ ((((cfg12.win 2).blk t).view.emb j) 1).val = (j 1).val := by
  obtain ⟨e0, e1, e2, e3, e4, e5⟩ := idx_facts12 t
  constructor
  · show (cfg12.win 2).index t (0 : Fin 2) * 200 + 1 * (j 0).val = _; rw [e4]; omega
  · show (cfg12.win 2).index t (1 : Fin 2) * 400 + 1 * (j 1).val = _; rw [e5]; omega

theorem flushed12_eq (c : Dev nD) (t : Fin cfg12.N) :
    (dat12 (F := Ideal) V c).flushed 2 t = ((cfg12.win 2).blk t).view.read (Elt Ideal)
      (Cert.Spec.mm (V c (Pipeline.arrRef spec12 0) : Cert.Spec.Mat 10000 10000) (V c (Pipeline.arrRef spec12 1) : Cert.Spec.Mat 10000 400)) := by
  show (cfg12.win 2).cut (grid12.coords t) ((dat12 V c).after 2 t) = _
  rw [after12_2]
  unfold out3_2
  rw [View.canon_unit_zero hz3]
  simp only [View.ld_unit_zero (S := S200x10000) hz3, View.ld_unit_zero (S := S10000x400) hz3]
  funext j
  show (k3_pay1 (F := Ideal) (iblk12 V c 0 t) (iblk12 V c 1 t) j : EReal)
    = Cert.Spec.mm (V c (Pipeline.arrRef spec12 0) : Cert.Spec.Mat 10000 10000) (V c (Pipeline.arrRef spec12 1) : Cert.Spec.Mat 10000 400) (((cfg12.win 2).blk t).view.emb j)
  refine (congrArg (k3_pay1 (F := Ideal) (iblk12 V c 0 t) (iblk12 V c 1 t)) (eq_ix2 (n0 := 200) (n1 := 400) j)).trans ?_
  refine (pay3_apply (iblk12 V c 0 t) (iblk12 V c 1 t) (j 0) (j 1)).trans ?_
  unfold Cert.Spec.mm
  refine Finset.sum_congr rfl fun k _ => ?_
  obtain ⟨h0, h1⟩ := rowOf12 t j
  have hq : (((cfg12.win 2).blk t).view.emb j) 1 = (j 1 : Fin 400) := Fin.ext h1
  refine (congrArg₂ (fun (x y : EReal) => x * y) (blockA12 V c t (j 0) k ((((cfg12.win 2).blk t).view.emb j) 0) h0) (blockB12 V c t k (j 1))).trans ?_
  rw [hq]

theorem mem_blk12 (t : Fin cfg12.N) (i : S10000x400.Idx) :
    i ∈ ((cfg12.win 2).blk t).view.set ↔ ∀ a : Fin 2, (cfg12.win 2).index t a * S200x400.size a ≤ (i a).val ∧ (i a).val < (cfg12.win 2).index t a * S200x400.size a + S200x400.size a := by
  rw [show ((cfg12.win 2).blk t).view.set = ((cfg12.win 2).rect t).set from View.set_slice_whole _ _, Rect.mem_set_unit]
  exact Iff.rfl

theorem cover_arr12 (i : S10000x400.Idx) : ∃ t : Fin cfg12.N, (cfg12.win 2).flush t = true ∧ i ∈ ((cfg12.win 2).blk t).view.set := by
  have hi0 : (i 0).val < 10000 := (i 0).isLt
  have hi1 : (i 1).val < 400 := (i 1).isLt
  have hN : (i 0).val / 200 < cfg12.N := lt_of_lt_of_eq (show (i 0).val / 200 < 50 by omega) N_12.symm
  obtain ⟨e0, e1, e2, e3, e4, e5⟩ := idx_facts12 ⟨(i 0).val / 200, hN⟩
  refine ⟨⟨(i 0).val / 200, hN⟩, flushed12_pt _, ?_⟩
  rw [mem_blk12]
  intro a
  match a with
  | ⟨0, _⟩ =>
    show (cfg12.win 2).index ⟨(i 0).val / 200, hN⟩ (0 : Fin 2) * 200 ≤ (i 0).val ∧ (i 0).val < (cfg12.win 2).index ⟨(i 0).val / 200, hN⟩ (0 : Fin 2) * 200 + 200
    rw [e4]; show (i 0).val / 200 * 200 ≤ (i 0).val ∧ (i 0).val < (i 0).val / 200 * 200 + 200; omega
  | ⟨1, _⟩ =>
    show (cfg12.win 2).index ⟨(i 0).val / 200, hN⟩ (1 : Fin 2) * 400 ≤ (i 1).val ∧ (i 1).val < (cfg12.win 2).index ⟨(i 0).val / 200, hN⟩ (1 : Fin 2) * 400 + 400
    rw [e5]; omega

theorem final12 (c : Dev nD) :
    ((dat12 (F := Ideal) V c).arrAt 2 cfg12.N : Cert.Spec.Mat 10000 400)
      = Cert.Spec.mm (V c (Pipeline.arrRef spec12 0) : Cert.Spec.Mat 10000 10000) (V c (Pipeline.arrRef spec12 1) : Cert.Spec.Mat 10000 400) :=
  (dat12 V c).arrAt_eq_of_cover 2 _ (fun t _ => flushed12_eq V c t) cover_arr12

end Cert.KernelIdeal.Val

end
-- ==== Proof.KI.Val13.lean ====
import proofs.«110190_j59090160058610_1_alg».proof.Proof.KI.Reg13
import proofs.«110190_j59090160058610_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem lhs13_0 (i : S400x1200.Idx) (q : dot_S400x1200_S1200x1200_S400x1200_1_0_0_1_n_n.contr.Idx) :
    (dot_S400x1200_S1200x1200_S400x1200_1_0_0_1_n_n.lhsIdx i q 0).val = (i 0).val := by
  unfold DotDims.lhsIdx
  rw [dif_neg (show ¬(0 : Fin S400x1200.rank) ∈ dot_S400x1200_S1200x1200_S400x1200_1_0_0_1_n_n.lhsBatch by decide), dif_pos (show (0 : Fin S400x1200.rank) ∈ dot_S400x1200_S1200x1200_S400x1200_1_0_0_1_n_n.lhsNonContracting by decide)]
  rfl

theorem lhs13_1 (i : S400x1200.Idx) (q : dot_S400x1200_S1200x1200_S400x1200_1_0_0_1_n_n.contr.Idx) :
    (dot_S400x1200_S1200x1200_S400x1200_1_0_0_1_n_n.lhsIdx i q 1).val = (q ⟨0, by decide⟩).val :=
  dot_S400x1200_S1200x1200_S400x1200_1_0_0_1_n_n.lhsIdx_val_of_single rfl i q

theorem rhs13_0 (i : S400x1200.Idx) (q : dot_S400x1200_S1200x1200_S400x1200_1_0_0_1_n_n.contr.Idx) :
    (dot_S400x1200_S1200x1200_S400x1200_1_0_0_1_n_n.rhsIdx i q 0).val = (q ⟨0, by decide⟩).val :=
  dot_S400x1200_S1200x1200_S400x1200_1_0_0_1_n_n.rhsIdx_val_of_single rfl i q

theorem rhs13_1 (i : S400x1200.Idx) (q : dot_S400x1200_S1200x1200_S400x1200_1_0_0_1_n_n.contr.Idx) :
    (dot_S400x1200_S1200x1200_S400x1200_1_0_0_1_n_n.rhsIdx i q 1).val = (i 1).val := by
  unfold DotDims.rhsIdx
  rw [dif_neg (show ¬(1 : Fin S1200x1200.rank) ∈ dot_S400x1200_S1200x1200_S400x1200_1_0_0_1_n_n.rhsBatch by decide), dif_pos (show (1 : Fin S1200x1200.rank) ∈ dot_S400x1200_S1200x1200_S400x1200_1_0_0_1_n_n.rhsNonContracting by decide)]
  rfl

theorem mm13_apply (l : FVec Ideal S400x1200 .bf16) (r : FVec Ideal S1200x1200 .bf16) (p : Fin 400) (q : Fin 1200) :
    matmul dot_S400x1200_S1200x1200_S400x1200_1_0_0_1_n_n none l r (constant (F := Ideal) S400x1200 .f32 0x00000000#32) (ix2 p q)
      = ∑ k : Fin 1200, l (ix2 p k) * r (ix2 k q) := by
  refine (Ideal.matmul_constant_zero_apply dot_S400x1200_S1200x1200_S400x1200_1_0_0_1_n_n none l r (ix2 p q)).trans ?_
  rw [← Equiv.sum_comp (contrEquiv1 dot_S400x1200_S1200x1200_S400x1200_1_0_0_1_n_n 1200 rfl rfl).symm]
  refine Finset.sum_congr rfl fun k _ => ?_
  have hk := contrEquiv1_symm_val dot_S400x1200_S1200x1200_S400x1200_1_0_0_1_n_n 1200 rfl rfl k
  have el : dot_S400x1200_S1200x1200_S400x1200_1_0_0_1_n_n.lhsIdx (ix2 p q) ((contrEquiv1 dot_S400x1200_S1200x1200_S400x1200_1_0_0_1_n_n 1200 rfl rfl).symm k) = ix2 p k := funext fun a => Fin.ext (by
    match a with
    | ⟨0, _⟩ => exact lhs13_0 _ _
    | ⟨1, _⟩ => exact (lhs13_1 _ _).trans hk)
  have er : dot_S400x1200_S1200x1200_S400x1200_1_0_0_1_n_n.rhsIdx (ix2 p q) ((contrEquiv1 dot_S400x1200_S1200x1200_S400x1200_1_0_0_1_n_n 1200 rfl rfl).symm k) = ix2 k q := funext fun a => Fin.ext (by
    match a with
    | ⟨0, _⟩ => exact (rhs13_0 _ _).trans hk
    | ⟨1, _⟩ => exact rhs13_1 _ _)
  rw [el, er]

theorem pay13_apply (x0 : Vec Ideal S400x1200 .bf16) (x1 : Vec Ideal S1200x1200 .f32) (x2 : Vec Ideal S1x1200 .f32)
    (p : Fin 400) (q : Fin 1200) :
    k13_pay1 x0 x1 x2 (ix2 p q) = max ((∑ k : Fin 1200, x0 (ix2 p k) * x1 (ix2 k q)) + x2 (ix2 (0 : Fin 1) q)) 0 := by
  unfold k13_pay1
  simp only [shapeCast_self]
  refine (maximumf_apply _ _ _).trans ?_
  refine congrArg₂ max ?_ Ideal.ofBits_zero_f32
  refine (addf_apply _ _ _).trans ?_
  refine congrArg₂ (· + ·) ?_ ?_
  · exact mm13_apply x0 (truncf .bf16 x1 _) p q
  · exact broadcastTo_1b_ab_apply x2 _ p q

theorem hz13 : (![0, 0] : Fin 2 → Nat) = fun _ => 0 := funext fun a => by fin_cases a <;> rfl

theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

abbrev whole13 (c : Dev nD) : Cert.Spec.Mat 10000 1200 :=
  Cert.Spec.relu (Cert.Spec.addRow
    (Cert.Spec.mm (V c (Pipeline.arrRef spec13 0) : Cert.Spec.Mat 10000 1200) (V c (Pipeline.arrRef spec13 1) : Cert.Spec.Mat 1200 1200))
    (Cert.Spec.rowOf (V c (Pipeline.arrRef spec13 2) : Cert.Spec.Mat 1 1200)))

theorem blockA13 (c : Dev nD) (t : Fin cfg13.N) (p : Fin 400) (k : Fin 1200) (r : Fin 10000) (hr : r.val = 400 * t.val + p.val) :
    (iblk13 V c 0 t : Vec Ideal S400x1200 .bf16) (ix2 p k) = (V c (Pipeline.arrRef spec13 0) : Cert.Spec.Mat 10000 1200) (ix2 r k) := by
  obtain ⟨e0, e1, -⟩ := idx_facts13 t
  show V c (Pipeline.arrRef spec13 0) (((cfg13.win 0).blk t).view.emb (ix2 p k)) = V c (Pipeline.arrRef spec13 0) (ix2 r k)
  refine congrArg _ (funext fun a => Fin.ext ?_)
  match a with
  | ⟨0, _⟩ => show win13_0.index t (0 : Fin 2) * 400 + 1 * p.val = r.val; rw [e0, hr]; omega
  | ⟨1, _⟩ => show win13_0.index t (1 : Fin 2) * 1200 + 1 * k.val = k.val; rw [e1]; omega

theorem blockB13 (c : Dev nD) (t : Fin cfg13.N) (k : Fin 1200) (q : Fin 1200) :
    (iblk13 V c 1 t : Vec Ideal S1200x1200 .f32) (ix2 k q) = (V c (Pipeline.arrRef spec13 1) : Cert.Spec.Mat 1200 1200) (ix2 k q) := by
  obtain ⟨-, -, e0, e1, -⟩ := idx_facts13 t
  show V c (Pipeline.arrRef spec13 1) (((cfg13.win 1).blk t).view.emb (ix2 k q)) = V c (Pipeline.arrRef spec13 1) (ix2 k q)
  refine congrArg _ (funext fun a => Fin.ext ?_)
  match a with
  | ⟨0, _⟩ => show win13_1.index t (0 : Fin 2) * 1200 + 1 * k.val = k.val; rw [e0]; omega
  | ⟨1, _⟩ => show win13_1.index t (1 : Fin 2) * 1200 + 1 * q.val = q.val; rw [e1]; omega

theorem blockV13 (c : Dev nD) (t : Fin cfg13.N) (q : Fin 1200) :
    (iblk13 V c 2 t : Vec Ideal S1x1200 .f32) (ix2 (0 : Fin 1) q) = (V c (Pipeline.arrRef spec13 2) : Cert.Spec.Mat 1 1200) (ix2 (0 : Fin 1) q) := by
  obtain ⟨-, -, -, -, e0, e1, -⟩ := idx_facts13 t
  show V c (Pipeline.arrRef spec13 2) (((cfg13.win 2).blk t).view.emb (ix2 (0 : Fin 1) q)) = V c (Pipeline.arrRef spec13 2) (ix2 (0 : Fin 1) q)
  refine congrArg _ (funext fun a => Fin.ext ?_)
  match a with
  | ⟨0, _⟩ => show win13_2.index t (0 : Fin 2) * 1 + 1 * (0 : Fin 1).val = (0 : Fin 1).val; rw [e0]; omega
  | ⟨1, _⟩ => show win13_2.index t (1 : Fin 2) * 1200 + 1 * q.val = q.val; rw [e1]; omega

theorem flushed13_eq (c : Dev nD) (t : Fin cfg13.N) :
    (dat13 (F := Ideal) V c).flushed 3 t = ((cfg13.win 3).blk t).view.read (Elt Ideal) (whole13 V c) := by
  show (cfg13.win 3).cut (grid13.coords t) ((dat13 V c).after 3 t) = _
  rw [after13_3]
  unfold out13_3
  rw [View.canon_unit_zero hz13]
  simp only [View.ld_unit_zero (S := S400x1200) hz13, View.ld_unit_zero (S := S1200x1200) hz13, View.ld_unit_zero (S := S1x1200) hz13]
  obtain ⟨-, -, -, -, -, -, e0, e1⟩ := idx_facts13 t
  have hN : grid13.N = 25 := N_13
  have ht : t.val < 25 := hN ▸ t.isLt
  funext j
  have hj0 : (j 0).val < 400 := (j 0).isLt
  have hj1 : (j 1).val < 1200 := (j 1).isLt
  have ex : (cfg13.win 3).xinj (grid13.coords t) j = ix2 (⟨(j 0).val, hj0⟩ : Fin 400) (⟨(j 1).val, hj1⟩ : Fin 1200) :=
    funext fun a => by match a with | ⟨0, _⟩ => rfl | ⟨1, _⟩ => rfl
  have ei : ((cfg13.win 3).blk t).view.emb j = ix2 (⟨400 * t.val + (j 0).val, by omega⟩ : Fin 10000) (⟨(j 1).val, hj1⟩ : Fin 1200) :=
    funext fun a => Fin.ext (by
      match a with
      | ⟨0, _⟩ => show win13_3.index t (0 : Fin 2) * 400 + 1 * (j 0).val = 400 * t.val + (j 0).val; rw [e0]; omega
      | ⟨1, _⟩ => show win13_3.index t (1 : Fin 2) * 1200 + 1 * (j 1).val = (j 1).val; rw [e1]; omega)
  show k13_pay1 (iblk13 V c 0 t) (iblk13 V c 1 t) (iblk13 V c 2 t) ((cfg13.win 3).xinj (grid13.coords t) j) = whole13 V c (((cfg13.win 3).blk t).view.emb j)
  rw [ex, ei]
  refine (pay13_apply (iblk13 V c 0 t) (iblk13 V c 1 t) (iblk13 V c 2 t) ⟨(j 0).val, hj0⟩ ⟨(j 1).val, hj1⟩).trans ?_
  refine congrArg₂ max (congrArg₂ (· + ·) (Finset.sum_congr rfl fun k _ => congrArg₂ (· * ·) ?_ ?_) ?_) rfl
  · exact blockA13 V c t ⟨(j 0).val, hj0⟩ k ⟨400 * t.val + (j 0).val, by omega⟩ rfl
  · exact blockB13 V c t k ⟨(j 1).val, hj1⟩
  · exact blockV13 V c t ⟨(j 1).val, hj1⟩

theorem mem_blk13 (t : Fin cfg13.N) (i : S10000x1200.Idx) :
    i ∈ ((cfg13.win 3).blk t).view.set ↔ ∀ a : Fin 2, win13_3.index t a * S400x1200.size a ≤ (i a).val ∧ (i a).val < win13_3.index t a * S400x1200.size a + S400x1200.size a := by
  show i ∈ ((View.whole main_v16).slice (win13_3.rect t)).set ↔ _
  rw [View.set_slice_whole, Rect.mem_set_unit]
  exact Iff.rfl

theorem cover_arr13 (i : S10000x1200.Idx) : ∃ t : Fin cfg13.N, (cfg13.win 3).flush t = true ∧ i ∈ ((cfg13.win 3).blk t).view.set := by
  have hN : grid13.N = 25 := N_13
  have hi0 : (i 0).val < 10000 := (i 0).isLt
  have hi1 : (i 1).val < 1200 := (i 1).isLt
  obtain ⟨t, ht⟩ : ∃ t : Fin cfg13.N, t.val = (i 0).val / 400 :=
    ⟨⟨(i 0).val / 400, by show (i 0).val / 400 < grid13.N; rw [hN]; omega⟩, rfl⟩
  obtain ⟨-, -, -, -, -, -, e0, e1⟩ := idx_facts13 t
  refine ⟨t, flush13_3 t, ?_⟩
  rw [mem_blk13]
  intro a
  match a with
  | ⟨0, _⟩ => show win13_3.index t (0 : Fin 2) * 400 ≤ (i 0).val ∧ (i 0).val < win13_3.index t (0 : Fin 2) * 400 + 400; rw [e0, ht]; omega
  | ⟨1, _⟩ => show win13_3.index t (1 : Fin 2) * 1200 ≤ (i 1).val ∧ (i 1).val < win13_3.index t (1 : Fin 2) * 1200 + 1200; rw [e1]; omega

theorem final13 (c : Dev nD) :
    ((dat13 (F := Ideal) V c).arrAt 3 cfg13.N : Cert.Spec.Mat 10000 1200)
      = Cert.Spec.relu (Cert.Spec.addRow
          (Cert.Spec.mm (V c (Pipeline.arrRef spec13 0) : Cert.Spec.Mat 10000 1200) (V c (Pipeline.arrRef spec13 1) : Cert.Spec.Mat 1200 1200))
          (Cert.Spec.rowOf (V c (Pipeline.arrRef spec13 2) : Cert.Spec.Mat 1 1200))) :=
  (dat13 (F := Ideal) V c).arrAt_eq_of_cover 3 (whole13 V c) (fun t _ => flushed13_eq V c t) cover_arr13

end Cert.KernelIdeal.Val

end
-- ==== Proof.KI.Finals.lean ====
import proofs.«110190_j59090160058610_1_alg».proof.Proof.KI.Val0
import proofs.«110190_j59090160058610_1_alg».proof.Proof.KI.Val1
import proofs.«110190_j59090160058610_1_alg».proof.Proof.KI.Val2
import proofs.«110190_j59090160058610_1_alg».proof.Proof.KI.Val3
import proofs.«110190_j59090160058610_1_alg».proof.Proof.KI.Val4
import proofs.«110190_j59090160058610_1_alg».proof.Proof.KI.Val5
import proofs.«110190_j59090160058610_1_alg».proof.Proof.KI.Val6
import proofs.«110190_j59090160058610_1_alg».proof.Proof.KI.Val7
import proofs.«110190_j59090160058610_1_alg».proof.Proof.KI.Val8
import proofs.«110190_j59090160058610_1_alg».proof.Proof.KI.Val9
import proofs.«110190_j59090160058610_1_alg».proof.Proof.KI.Val10
import proofs.«110190_j59090160058610_1_alg».proof.Proof.KI.Val11
import proofs.«110190_j59090160058610_1_alg».proof.Proof.KI.Val12
import proofs.«110190_j59090160058610_1_alg».proof.Proof.KI.Val13
-- ==== Proof.KI.Chain.lean ====
import proofs.«110190_j59090160058610_1_alg».proof.Proof.KI.Fold
import proofs.«110190_j59090160058610_1_alg».proof.Proof.KI.Finals
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.StableHlo

variable (m : (ℓ : Loc nD τ sig) → Buf (Elt Ideal) ℓ)

abbrev A0 (c : Dev nD) : Cert.Spec.Mat 10000 500 := m ((c : Thread nD τ).loc main_arg0)
abbrev A1 (c : Dev nD) : Cert.Spec.Mat 10000 10000 := m ((c : Thread nD τ).loc main_arg1)
abbrev A2 (c : Dev nD) : Cert.Spec.Mat 500 400 := m ((c : Thread nD τ).loc main_arg2)
abbrev A3 (c : Dev nD) : Cert.Spec.Mat 500 400 := m ((c : Thread nD τ).loc main_arg3)
abbrev A4 (c : Dev nD) : Cert.Spec.Mat 500 400 := m ((c : Thread nD τ).loc main_arg4)
abbrev A5 (c : Dev nD) : Cert.Spec.Mat 1200 400 := m ((c : Thread nD τ).loc main_arg5)
abbrev A6 (c : Dev nD) : Cert.Spec.Mat 1200 400 := m ((c : Thread nD τ).loc main_arg6)
abbrev A7 (c : Dev nD) : Cert.Spec.Mat 1200 400 := m ((c : Thread nD τ).loc main_arg7)
abbrev A8 (c : Dev nD) : Cert.Spec.Mat 1200 1200 := m ((c : Thread nD τ).loc main_arg8)
abbrev A9 (c : Dev nD) : Cert.Spec.Row 1200 := m ((c : Thread nD τ).loc main_arg9)

abbrev L1 (c : Dev nD) : Cert.Spec.Mat 10000 1200 := Cert.Spec.layer1 (A0 m c) (A1 m c) (A2 m c) (A3 m c) (A4 m c)
abbrev L2 (c : Dev nD) : Cert.Spec.Mat 10000 1200 := Cert.Spec.layer2 (L1 m c) (A1 m c) (A5 m c) (A6 m c) (A7 m c)

theorem mm_congr {a k b : Nat} {x x' : Cert.Spec.Mat a k} {y y' : Cert.Spec.Mat k b} (hx : x = x') (hy : y = y') :
    Cert.Spec.mm x y = Cert.Spec.mm x' y' := by subst hx; subst hy; rfl

theorem cat3_congr {x x' y y' z z' : Cert.Spec.Mat 10000 400} (hx : x = x') (hy : y = y') (hz : z = z') :
    Cert.Spec.cat3 x y z = Cert.Spec.cat3 x' y' z' := by subst hx; subst hy; subst hz; rfl

abbrev produced : List (Ref sig .tc) :=
  [main_v0, main_v1, main_v2, main_v3, main_v4, main_v5, main_v6, main_v7, main_v8, main_v9, main_v10, main_v11, main_v12, main_v13, main_v14, main_v15, main_v16]
theorem ne_of_not_produced {b x : Ref sig .tc} (hb : b ∉ produced) (hx : x ∈ produced) : b ≠ x := fun e => hb (e ▸ hx)

theorem args_at1 (c : Dev nD) (b : Ref sig .tc) (hb : b ∉ produced) :
    W1 (F := Ideal) m c (Proc.devRef .tc b) = W0 (F := Ideal) m c (Proc.devRef .tc b) :=
  W1_keep m c b (ne_of_not_produced hb (by decide))
theorem args_at2 (c : Dev nD) (b : Ref sig .tc) (hb : b ∉ produced) :
    W2 (F := Ideal) m c (Proc.devRef .tc b) = W0 (F := Ideal) m c (Proc.devRef .tc b) :=
  (W2_keep m c b (ne_of_not_produced hb (by decide))).trans (args_at1 m c b hb)
theorem args_at3 (c : Dev nD) (b : Ref sig .tc) (hb : b ∉ produced) :
    W3 (F := Ideal) m c (Proc.devRef .tc b) = W0 (F := Ideal) m c (Proc.devRef .tc b) :=
  (W3_keep m c b (ne_of_not_produced hb (by decide))).trans (args_at2 m c b hb)
theorem args_at4 (c : Dev nD) (b : Ref sig .tc) (hb : b ∉ produced) :
    W4 (F := Ideal) m c (Proc.devRef .tc b) = W0 (F := Ideal) m c (Proc.devRef .tc b) :=
  (W4_keep m c b (ne_of_not_produced hb (by decide))).trans (args_at3 m c b hb)
theorem args_at5 (c : Dev nD) (b : Ref sig .tc) (hb : b ∉ produced) :
    W5 (F := Ideal) m c (Proc.devRef .tc b) = W0 (F := Ideal) m c (Proc.devRef .tc b) :=
  (W5_keep m c b (ne_of_not_produced hb (by decide))).trans (args_at4 m c b hb)
theorem args_at6 (c : Dev nD) (b : Ref sig .tc) (hb : b ∉ produced) :
    W6 (F := Ideal) m c (Proc.devRef .tc b) = W0 (F := Ideal) m c (Proc.devRef .tc b) :=
  (W6_keep m c b (ne_of_not_produced hb (by decide))).trans (args_at5 m c b hb)
theorem args_at7 (c : Dev nD) (b : Ref sig .tc) (hb : b ∉ produced) :
    W7 (F := Ideal) m c (Proc.devRef .tc b) = W0 (F := Ideal) m c (Proc.devRef .tc b) :=
  (W7_keep m c b (ne_of_not_produced hb (by decide))).trans (args_at6 m c b hb)
theorem args_at8 (c : Dev nD) (b : Ref sig .tc) (hb : b ∉ produced) :
    W8 (F := Ideal) m c (Proc.devRef .tc b) = W0 (F := Ideal) m c (Proc.devRef .tc b) :=
  (W8_keep m c b (fun h => hb ((by decide : hostOps7_W ⊆ produced) h))).trans (args_at7 m c b hb)
theorem args_at9 (c : Dev nD) (b : Ref sig .tc) (hb : b ∉ produced) :
    W9 (F := Ideal) m c (Proc.devRef .tc b) = W0 (F := Ideal) m c (Proc.devRef .tc b) :=
  (W9_keep m c b (ne_of_not_produced hb (by decide))).trans (args_at8 m c b hb)
theorem args_at10 (c : Dev nD) (b : Ref sig .tc) (hb : b ∉ produced) :
    W10 (F := Ideal) m c (Proc.devRef .tc b) = W0 (F := Ideal) m c (Proc.devRef .tc b) :=
  (W10_keep m c b (ne_of_not_produced hb (by decide))).trans (args_at9 m c b hb)
theorem args_at11 (c : Dev nD) (b : Ref sig .tc) (hb : b ∉ produced) :
    W11 (F := Ideal) m c (Proc.devRef .tc b) = W0 (F := Ideal) m c (Proc.devRef .tc b) :=
  (W11_keep m c b (ne_of_not_produced hb (by decide))).trans (args_at10 m c b hb)
theorem args_at12 (c : Dev nD) (b : Ref sig .tc) (hb : b ∉ produced) :
    W12 (F := Ideal) m c (Proc.devRef .tc b) = W0 (F := Ideal) m c (Proc.devRef .tc b) :=
  (W12_keep m c b (ne_of_not_produced hb (by decide))).trans (args_at11 m c b hb)
theorem args_at13 (c : Dev nD) (b : Ref sig .tc) (hb : b ∉ produced) :
    W13 (F := Ideal) m c (Proc.devRef .tc b) = W0 (F := Ideal) m c (Proc.devRef .tc b) :=
  (W13_keep m c b (ne_of_not_produced hb (by decide))).trans (args_at12 m c b hb)
theorem args_at14 (c : Dev nD) (b : Ref sig .tc) (hb : b ∉ produced) :
    W14 (F := Ideal) m c (Proc.devRef .tc b) = W0 (F := Ideal) m c (Proc.devRef .tc b) :=
  (W14_keep m c b (ne_of_not_produced hb (by decide))).trans (args_at13 m c b hb)
theorem args_at15 (c : Dev nD) (b : Ref sig .tc) (hb : b ∉ produced) :
    W15 (F := Ideal) m c (Proc.devRef .tc b) = W0 (F := Ideal) m c (Proc.devRef .tc b) :=
  (W15_keep m c b (fun h => hb ((by decide : hostOps13_W ⊆ produced) h))).trans (args_at14 m c b hb)

theorem v0_eq (c : Dev nD) :
    (W1 (F := Ideal) m c (Proc.devRef .tc main_v0) : Cert.Spec.Mat 10000 10000) = (A1 m c) := by
  rw [W1_result]
  exact final0 (V0 m) c
theorem v0_at1 (c : Dev nD) : (W1 (F := Ideal) m c (Proc.devRef .tc main_v0) : Cert.Spec.Mat 10000 10000) = (A1 m c) := v0_eq m c
theorem v0_at2 (c : Dev nD) : (W2 (F := Ideal) m c (Proc.devRef .tc main_v0) : Cert.Spec.Mat 10000 10000) = (A1 m c) := (W2_keep m c main_v0 (by decide)).trans (v0_at1 m c)
theorem v0_at3 (c : Dev nD) : (W3 (F := Ideal) m c (Proc.devRef .tc main_v0) : Cert.Spec.Mat 10000 10000) = (A1 m c) := (W3_keep m c main_v0 (by decide)).trans (v0_at2 m c)
theorem v0_at4 (c : Dev nD) : (W4 (F := Ideal) m c (Proc.devRef .tc main_v0) : Cert.Spec.Mat 10000 10000) = (A1 m c) := (W4_keep m c main_v0 (by decide)).trans (v0_at3 m c)
theorem v0_at5 (c : Dev nD) : (W5 (F := Ideal) m c (Proc.devRef .tc main_v0) : Cert.Spec.Mat 10000 10000) = (A1 m c) := (W5_keep m c main_v0 (by decide)).trans (v0_at4 m c)
theorem v0_at6 (c : Dev nD) : (W6 (F := Ideal) m c (Proc.devRef .tc main_v0) : Cert.Spec.Mat 10000 10000) = (A1 m c) := (W6_keep m c main_v0 (by decide)).trans (v0_at5 m c)
theorem v0_at7 (c : Dev nD) : (W7 (F := Ideal) m c (Proc.devRef .tc main_v0) : Cert.Spec.Mat 10000 10000) = (A1 m c) := (W7_keep m c main_v0 (by decide)).trans (v0_at6 m c)
theorem v0_at8 (c : Dev nD) : (W8 (F := Ideal) m c (Proc.devRef .tc main_v0) : Cert.Spec.Mat 10000 10000) = (A1 m c) := (W8_keep m c main_v0 (by decide)).trans (v0_at7 m c)
theorem v0_at9 (c : Dev nD) : (W9 (F := Ideal) m c (Proc.devRef .tc main_v0) : Cert.Spec.Mat 10000 10000) = (A1 m c) := (W9_keep m c main_v0 (by decide)).trans (v0_at8 m c)
theorem v0_at10 (c : Dev nD) : (W10 (F := Ideal) m c (Proc.devRef .tc main_v0) : Cert.Spec.Mat 10000 10000) = (A1 m c) := (W10_keep m c main_v0 (by decide)).trans (v0_at9 m c)
theorem v0_at11 (c : Dev nD) : (W11 (F := Ideal) m c (Proc.devRef .tc main_v0) : Cert.Spec.Mat 10000 10000) = (A1 m c) := (W11_keep m c main_v0 (by decide)).trans (v0_at10 m c)
theorem v0_at12 (c : Dev nD) : (W12 (F := Ideal) m c (Proc.devRef .tc main_v0) : Cert.Spec.Mat 10000 10000) = (A1 m c) := (W12_keep m c main_v0 (by decide)).trans (v0_at11 m c)
theorem v0_at13 (c : Dev nD) : (W13 (F := Ideal) m c (Proc.devRef .tc main_v0) : Cert.Spec.Mat 10000 10000) = (A1 m c) := (W13_keep m c main_v0 (by decide)).trans (v0_at12 m c)

theorem v1_eq (c : Dev nD) :
    (W2 (F := Ideal) m c (Proc.devRef .tc main_v1) : Cert.Spec.Mat 10000 400) = (Cert.Spec.relu (Cert.Spec.mm (A0 m c) (A2 m c))) := by
  rw [W2_result]
  refine (final1 (V1 m) c).trans ?_
  exact congrArg Cert.Spec.relu (mm_congr (args_at1 m c main_arg0 (by decide)) (args_at1 m c main_arg2 (by decide)))
theorem v1_at2 (c : Dev nD) : (W2 (F := Ideal) m c (Proc.devRef .tc main_v1) : Cert.Spec.Mat 10000 400) = (Cert.Spec.relu (Cert.Spec.mm (A0 m c) (A2 m c))) := v1_eq m c
theorem v1_at3 (c : Dev nD) : (W3 (F := Ideal) m c (Proc.devRef .tc main_v1) : Cert.Spec.Mat 10000 400) = (Cert.Spec.relu (Cert.Spec.mm (A0 m c) (A2 m c))) := (W3_keep m c main_v1 (by decide)).trans (v1_at2 m c)
theorem v1_at4 (c : Dev nD) : (W4 (F := Ideal) m c (Proc.devRef .tc main_v1) : Cert.Spec.Mat 10000 400) = (Cert.Spec.relu (Cert.Spec.mm (A0 m c) (A2 m c))) := (W4_keep m c main_v1 (by decide)).trans (v1_at3 m c)
theorem v1_at5 (c : Dev nD) : (W5 (F := Ideal) m c (Proc.devRef .tc main_v1) : Cert.Spec.Mat 10000 400) = (Cert.Spec.relu (Cert.Spec.mm (A0 m c) (A2 m c))) := (W5_keep m c main_v1 (by decide)).trans (v1_at4 m c)
theorem v1_at6 (c : Dev nD) : (W6 (F := Ideal) m c (Proc.devRef .tc main_v1) : Cert.Spec.Mat 10000 400) = (Cert.Spec.relu (Cert.Spec.mm (A0 m c) (A2 m c))) := (W6_keep m c main_v1 (by decide)).trans (v1_at5 m c)
theorem v1_at7 (c : Dev nD) : (W7 (F := Ideal) m c (Proc.devRef .tc main_v1) : Cert.Spec.Mat 10000 400) = (Cert.Spec.relu (Cert.Spec.mm (A0 m c) (A2 m c))) := (W7_keep m c main_v1 (by decide)).trans (v1_at6 m c)

theorem v2_eq (c : Dev nD) :
    (W3 (F := Ideal) m c (Proc.devRef .tc main_v2) : Cert.Spec.Mat 10000 400) = (Cert.Spec.relu (Cert.Spec.mm (A0 m c) (A3 m c))) := by
  rw [W3_result]
  refine (final2 (V2 m) c).trans ?_
  exact congrArg Cert.Spec.relu (mm_congr (args_at2 m c main_arg0 (by decide)) (args_at2 m c main_arg3 (by decide)))
theorem v2_at3 (c : Dev nD) : (W3 (F := Ideal) m c (Proc.devRef .tc main_v2) : Cert.Spec.Mat 10000 400) = (Cert.Spec.relu (Cert.Spec.mm (A0 m c) (A3 m c))) := v2_eq m c

theorem v3_eq (c : Dev nD) :
    (W4 (F := Ideal) m c (Proc.devRef .tc main_v3) : Cert.Spec.Mat 10000 400) = (Cert.Spec.mm (A1 m c) (Cert.Spec.relu (Cert.Spec.mm (A0 m c) (A3 m c)))) := by
  rw [W4_result]
  refine (final3 (V3 m) c).trans ?_
  exact mm_congr (v0_at3 m c) (v2_at3 m c)
theorem v3_at4 (c : Dev nD) : (W4 (F := Ideal) m c (Proc.devRef .tc main_v3) : Cert.Spec.Mat 10000 400) = (Cert.Spec.mm (A1 m c) (Cert.Spec.relu (Cert.Spec.mm (A0 m c) (A3 m c)))) := v3_eq m c
theorem v3_at5 (c : Dev nD) : (W5 (F := Ideal) m c (Proc.devRef .tc main_v3) : Cert.Spec.Mat 10000 400) = (Cert.Spec.mm (A1 m c) (Cert.Spec.relu (Cert.Spec.mm (A0 m c) (A3 m c)))) := (W5_keep m c main_v3 (by decide)).trans (v3_at4 m c)
theorem v3_at6 (c : Dev nD) : (W6 (F := Ideal) m c (Proc.devRef .tc main_v3) : Cert.Spec.Mat 10000 400) = (Cert.Spec.mm (A1 m c) (Cert.Spec.relu (Cert.Spec.mm (A0 m c) (A3 m c)))) := (W6_keep m c main_v3 (by decide)).trans (v3_at5 m c)
theorem v3_at7 (c : Dev nD) : (W7 (F := Ideal) m c (Proc.devRef .tc main_v3) : Cert.Spec.Mat 10000 400) = (Cert.Spec.mm (A1 m c) (Cert.Spec.relu (Cert.Spec.mm (A0 m c) (A3 m c)))) := (W7_keep m c main_v3 (by decide)).trans (v3_at6 m c)

theorem v4_eq (c : Dev nD) :
    (W5 (F := Ideal) m c (Proc.devRef .tc main_v4) : Cert.Spec.Mat 10000 400) = (Cert.Spec.relu (Cert.Spec.mm (A0 m c) (A4 m c))) := by
  rw [W5_result]
  refine (final4 (V4 m) c).trans ?_
  exact congrArg Cert.Spec.relu (mm_congr (args_at4 m c main_arg0 (by decide)) (args_at4 m c main_arg4 (by decide)))
theorem v4_at5 (c : Dev nD) : (W5 (F := Ideal) m c (Proc.devRef .tc main_v4) : Cert.Spec.Mat 10000 400) = (Cert.Spec.relu (Cert.Spec.mm (A0 m c) (A4 m c))) := v4_eq m c

theorem v5_eq (c : Dev nD) :
    (W6 (F := Ideal) m c (Proc.devRef .tc main_v5) : Cert.Spec.Mat 10000 400) = (Cert.Spec.mm (A1 m c) (Cert.Spec.relu (Cert.Spec.mm (A0 m c) (A4 m c)))) := by
  rw [W6_result]
  refine (final5 (V5 m) c).trans ?_
  exact mm_congr (v0_at5 m c) (v4_at5 m c)
theorem v5_at6 (c : Dev nD) : (W6 (F := Ideal) m c (Proc.devRef .tc main_v5) : Cert.Spec.Mat 10000 400) = (Cert.Spec.mm (A1 m c) (Cert.Spec.relu (Cert.Spec.mm (A0 m c) (A4 m c)))) := v5_eq m c

theorem v6_eq (c : Dev nD) :
    (W7 (F := Ideal) m c (Proc.devRef .tc main_v6) : Cert.Spec.Mat 10000 400) = (Cert.Spec.mm (A1 m c) (Cert.Spec.mm (A1 m c) (Cert.Spec.relu (Cert.Spec.mm (A0 m c) (A4 m c))))) := by
  rw [W7_result]
  refine (final6 (V6 m) c).trans ?_
  exact mm_congr (v0_at6 m c) (v5_at6 m c)
theorem v6_at7 (c : Dev nD) : (W7 (F := Ideal) m c (Proc.devRef .tc main_v6) : Cert.Spec.Mat 10000 400) = (Cert.Spec.mm (A1 m c) (Cert.Spec.mm (A1 m c) (Cert.Spec.relu (Cert.Spec.mm (A0 m c) (A4 m c))))) := v6_eq m c

theorem v7_eq (c : Dev nD) :
    (W8 (F := Ideal) m c (Proc.devRef .tc main_v7) : Cert.Spec.Mat 10000 1200) = L1 m c := by
  show StableHlo.after hostOps7 _ (Proc.devRef .tc main_v7) = _
  after_results
  exact cat3_congr (v1_at7 m c) (v3_at7 m c) (v6_at7 m c)
theorem v7_at8 (c : Dev nD) : (W8 (F := Ideal) m c (Proc.devRef .tc main_v7) : Cert.Spec.Mat 10000 1200) = (L1 m c) := v7_eq m c
theorem v7_at9 (c : Dev nD) : (W9 (F := Ideal) m c (Proc.devRef .tc main_v7) : Cert.Spec.Mat 10000 1200) = (L1 m c) := (W9_keep m c main_v7 (by decide)).trans (v7_at8 m c)
theorem v7_at10 (c : Dev nD) : (W10 (F := Ideal) m c (Proc.devRef .tc main_v7) : Cert.Spec.Mat 10000 1200) = (L1 m c) := (W10_keep m c main_v7 (by decide)).trans (v7_at9 m c)
theorem v7_at11 (c : Dev nD) : (W11 (F := Ideal) m c (Proc.devRef .tc main_v7) : Cert.Spec.Mat 10000 1200) = (L1 m c) := (W11_keep m c main_v7 (by decide)).trans (v7_at10 m c)

theorem v8_eq (c : Dev nD) :
    (W9 (F := Ideal) m c (Proc.devRef .tc main_v8) : Cert.Spec.Mat 10000 400) = (Cert.Spec.mm (L1 m c) (A5 m c)) := by
  rw [W9_result]
  refine (final7 (V8 m) c).trans ?_
  exact mm_congr (v7_at8 m c) (args_at8 m c main_arg5 (by decide))
theorem v8_at9 (c : Dev nD) : (W9 (F := Ideal) m c (Proc.devRef .tc main_v8) : Cert.Spec.Mat 10000 400) = (Cert.Spec.mm (L1 m c) (A5 m c)) := v8_eq m c
theorem v8_at10 (c : Dev nD) : (W10 (F := Ideal) m c (Proc.devRef .tc main_v8) : Cert.Spec.Mat 10000 400) = (Cert.Spec.mm (L1 m c) (A5 m c)) := (W10_keep m c main_v8 (by decide)).trans (v8_at9 m c)
theorem v8_at11 (c : Dev nD) : (W11 (F := Ideal) m c (Proc.devRef .tc main_v8) : Cert.Spec.Mat 10000 400) = (Cert.Spec.mm (L1 m c) (A5 m c)) := (W11_keep m c main_v8 (by decide)).trans (v8_at10 m c)
theorem v8_at12 (c : Dev nD) : (W12 (F := Ideal) m c (Proc.devRef .tc main_v8) : Cert.Spec.Mat 10000 400) = (Cert.Spec.mm (L1 m c) (A5 m c)) := (W12_keep m c main_v8 (by decide)).trans (v8_at11 m c)
theorem v8_at13 (c : Dev nD) : (W13 (F := Ideal) m c (Proc.devRef .tc main_v8) : Cert.Spec.Mat 10000 400) = (Cert.Spec.mm (L1 m c) (A5 m c)) := (W13_keep m c main_v8 (by decide)).trans (v8_at12 m c)
theorem v8_at14 (c : Dev nD) : (W14 (F := Ideal) m c (Proc.devRef .tc main_v8) : Cert.Spec.Mat 10000 400) = (Cert.Spec.mm (L1 m c) (A5 m c)) := (W14_keep m c main_v8 (by decide)).trans (v8_at13 m c)

theorem v9_eq (c : Dev nD) :
    (W10 (F := Ideal) m c (Proc.devRef .tc main_v9) : Cert.Spec.Mat 10000 400) = (Cert.Spec.mm (L1 m c) (A6 m c)) := by
  rw [W10_result]
  refine (final8 (V9 m) c).trans ?_
  exact mm_congr (v7_at9 m c) (args_at9 m c main_arg6 (by decide))
theorem v9_at10 (c : Dev nD) : (W10 (F := Ideal) m c (Proc.devRef .tc main_v9) : Cert.Spec.Mat 10000 400) = (Cert.Spec.mm (L1 m c) (A6 m c)) := v9_eq m c

theorem v10_eq (c : Dev nD) :
    (W11 (F := Ideal) m c (Proc.devRef .tc main_v10) : Cert.Spec.Mat 10000 400) = (Cert.Spec.mm (A1 m c) (Cert.Spec.mm (L1 m c) (A6 m c))) := by
  rw [W11_result]
  refine (final9 (V10 m) c).trans ?_
  exact mm_congr (v0_at10 m c) (v9_at10 m c)
theorem v10_at11 (c : Dev nD) : (W11 (F := Ideal) m c (Proc.devRef .tc main_v10) : Cert.Spec.Mat 10000 400) = (Cert.Spec.mm (A1 m c) (Cert.Spec.mm (L1 m c) (A6 m c))) := v10_eq m c
theorem v10_at12 (c : Dev nD) : (W12 (F := Ideal) m c (Proc.devRef .tc main_v10) : Cert.Spec.Mat 10000 400) = (Cert.Spec.mm (A1 m c) (Cert.Spec.mm (L1 m c) (A6 m c))) := (W12_keep m c main_v10 (by decide)).trans (v10_at11 m c)
theorem v10_at13 (c : Dev nD) : (W13 (F := Ideal) m c (Proc.devRef .tc main_v10) : Cert.Spec.Mat 10000 400) = (Cert.Spec.mm (A1 m c) (Cert.Spec.mm (L1 m c) (A6 m c))) := (W13_keep m c main_v10 (by decide)).trans (v10_at12 m c)
theorem v10_at14 (c : Dev nD) : (W14 (F := Ideal) m c (Proc.devRef .tc main_v10) : Cert.Spec.Mat 10000 400) = (Cert.Spec.mm (A1 m c) (Cert.Spec.mm (L1 m c) (A6 m c))) := (W14_keep m c main_v10 (by decide)).trans (v10_at13 m c)

theorem v11_eq (c : Dev nD) :
    (W12 (F := Ideal) m c (Proc.devRef .tc main_v11) : Cert.Spec.Mat 10000 400) = (Cert.Spec.mm (L1 m c) (A7 m c)) := by
  rw [W12_result]
  refine (final10 (V11 m) c).trans ?_
  exact mm_congr (v7_at11 m c) (args_at11 m c main_arg7 (by decide))
theorem v11_at12 (c : Dev nD) : (W12 (F := Ideal) m c (Proc.devRef .tc main_v11) : Cert.Spec.Mat 10000 400) = (Cert.Spec.mm (L1 m c) (A7 m c)) := v11_eq m c

theorem v12_eq (c : Dev nD) :
    (W13 (F := Ideal) m c (Proc.devRef .tc main_v12) : Cert.Spec.Mat 10000 400) = (Cert.Spec.mm (A1 m c) (Cert.Spec.mm (L1 m c) (A7 m c))) := by
  rw [W13_result]
  refine (final11 (V12 m) c).trans ?_
  exact mm_congr (v0_at12 m c) (v11_at12 m c)
theorem v12_at13 (c : Dev nD) : (W13 (F := Ideal) m c (Proc.devRef .tc main_v12) : Cert.Spec.Mat 10000 400) = (Cert.Spec.mm (A1 m c) (Cert.Spec.mm (L1 m c) (A7 m c))) := v12_eq m c

theorem v13_eq (c : Dev nD) :
    (W14 (F := Ideal) m c (Proc.devRef .tc main_v13) : Cert.Spec.Mat 10000 400) = (Cert.Spec.mm (A1 m c) (Cert.Spec.mm (A1 m c) (Cert.Spec.mm (L1 m c) (A7 m c)))) := by
  rw [W14_result]
  refine (final12 (V13 m) c).trans ?_
  exact mm_congr (v0_at13 m c) (v12_at13 m c)
theorem v13_at14 (c : Dev nD) : (W14 (F := Ideal) m c (Proc.devRef .tc main_v13) : Cert.Spec.Mat 10000 400) = (Cert.Spec.mm (A1 m c) (Cert.Spec.mm (A1 m c) (Cert.Spec.mm (L1 m c) (A7 m c)))) := v13_eq m c

theorem v14_eq (c : Dev nD) :
    (W15 (F := Ideal) m c (Proc.devRef .tc main_v14) : Cert.Spec.Mat 10000 1200) = L2 m c := by
  show StableHlo.after hostOps13 _ (Proc.devRef .tc main_v14) = _
  after_results
  exact cat3_congr (v8_at14 m c) (v10_at14 m c) (v13_at14 m c)
theorem v14_at15 (c : Dev nD) : (W15 (F := Ideal) m c (Proc.devRef .tc main_v14) : Cert.Spec.Mat 10000 1200) = (L2 m c) := v14_eq m c
theorem v15_eq (c : Dev nD) :
    Cert.Spec.rowOf (W15 (F := Ideal) m c (Proc.devRef .tc main_v15) : Cert.Spec.Mat 1 1200) = A9 m c := by
  show Cert.Spec.rowOf (StableHlo.after (hostOps13 (F := Ideal)) (W14 (F := Ideal) m c) (Proc.devRef .tc main_v15) : Cert.Spec.Mat 1 1200) = _
  after_results
  refine Eq.trans (b := (W14 (F := Ideal) m c (Proc.devRef .tc main_arg9) : Cert.Spec.Row 1200)) ?_ (args_at14 m c main_arg9 (by decide))
  funext i
  show shapeCast (⟨2, ![1, 1200]⟩ : Shape) (W14 (F := Ideal) m c (Proc.devRef .tc main_arg9) : Cert.Spec.Row 1200) shapeCasts_S1200_S1x1200 (ix2 (0 : Fin 1) (i 0)) = _
  refine (shapeCast_a_1a_apply _ _ _ _).trans ?_
  exact congrArg _ (eq_ix1 i).symm
theorem v15_at15 (c : Dev nD) : Cert.Spec.rowOf (W15 (F := Ideal) m c (Proc.devRef .tc main_v15) : Cert.Spec.Mat 1 1200) = A9 m c := v15_eq m c

theorem v16_eq (c : Dev nD) :
    (W16 (F := Ideal) m c (Proc.devRef .tc main_v16) : Cert.Spec.Mat 10000 1200) = Cert.Spec.out (A0 m c) (A1 m c) (A2 m c) (A3 m c) (A4 m c) (A5 m c) (A6 m c) (A7 m c) (A8 m c) (A9 m c) := by
  rw [W16_result]
  refine (final13 (V15 m) c).trans ?_
  have h0 := (v14_at15 m c)
  have h1 : (W15 (F := Ideal) m c (Proc.devRef .tc main_arg8) : Cert.Spec.Mat 1200 1200) = A8 m c := (args_at15 m c main_arg8 (by decide))
  have h2 := (v15_at15 m c)
  exact congrArg Cert.Spec.relu (congr (congrArg Cert.Spec.addRow (mm_congr h0 h1)) h2)

theorem result (m : (ℓ : Loc nD τ sig) → Buf (Elt Ideal) ℓ) (c : Dev nD) :
    (W16 (F := Ideal) m c (Proc.devRef .tc main_v16) : Cert.Spec.Mat 10000 1200)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  v16_eq m c

end Cert.KernelIdeal.Val

end
-- ==== Proof.RefVal.lean ====
import proofs.«110190_j59090160058610_1_alg».proof.Defs
import proofs.«110190_j59090160058610_1_alg».proof.Proof.Gen.ReferenceIdeal
import proofs.«110190_j59090160058610_1_alg».proof.Proof.Gen.ReferenceIdeal.Run
import proofs.«110190_j59090160058610_1_alg».proof.Proof.Gen.ReferenceIdeal.Read
import proofs.«110190_j59090160058610_1_alg».proof.Proof.Spec

noncomputable section

namespace Cert.RefVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem mm_of_apply {a k b : Nat} (f : Spec.Mat a b) (x : Spec.Mat a k) (y : Spec.Mat k b)
    (lidx : (⟨2, ![a, b]⟩ : Shape).Idx → Fin k → (⟨2, ![a, k]⟩ : Shape).Idx)
    (ridx : (⟨2, ![a, b]⟩ : Shape).Idx → Fin k → (⟨2, ![k, b]⟩ : Shape).Idx)
    (h : ∀ i, f i = ∑ j : Fin k, x (lidx i j) * y (ridx i j))
    (hl : ∀ i j, lidx i j = ix2 (i 0) j) (hr : ∀ i j, ridx i j = ix2 j (i 1)) : f = Spec.mm x y := by
  funext i
  rw [h i]
  unfold Spec.mm
  exact Finset.sum_congr rfl fun j _ => by rw [hl, hr]; rfl

theorem v0_eq (x0 : (⟨S10000x500, .f32⟩ : BufTy).Contents (Elt Ideal)) (x2 : (⟨S500x400, .f32⟩ : BufTy).Contents (Elt Ideal)) :
    val_main_v0 (F := Ideal) x0 x2 = Spec.mm (a := 10000) (k := 500) (b := 400) x0 x2 :=
  mm_of_apply (a := 10000) (k := 500) (b := 400) _ _ _ lidx_main_v0 ridx_main_v0 (val_main_v0_apply x0 x2)
    (fun _ _ => funext fun a => by match a with | ⟨0, _⟩ => rfl | ⟨1, _⟩ => rfl)
    (fun _ _ => funext fun a => by match a with | ⟨0, _⟩ => rfl | ⟨1, _⟩ => rfl)

theorem v1_eq (x0 : (⟨S10000x500, .f32⟩ : BufTy).Contents (Elt Ideal)) (x2 : (⟨S500x400, .f32⟩ : BufTy).Contents (Elt Ideal)) :
    val_main_v1 (F := Ideal) x0 x2 = Spec.relu (a := 10000) (b := 400) (val_main_v0 (F := Ideal) x0 x2) := by
  funext i
  rw [val_main_v1_apply, val_main_call0_v0_apply, val_main_call0_cst_apply, Ideal.maximumf_def, Ideal.ofBits_def, Ideal.ofBits_zero_f32]
  rfl

theorem v2_eq (x0 : (⟨S10000x500, .f32⟩ : BufTy).Contents (Elt Ideal)) (x3 : (⟨S500x400, .f32⟩ : BufTy).Contents (Elt Ideal)) :
    val_main_v2 (F := Ideal) x0 x3 = Spec.mm (a := 10000) (k := 500) (b := 400) x0 x3 :=
  mm_of_apply (a := 10000) (k := 500) (b := 400) _ _ _ lidx_main_v2 ridx_main_v2 (val_main_v2_apply x0 x3)
    (fun _ _ => funext fun a => by match a with | ⟨0, _⟩ => rfl | ⟨1, _⟩ => rfl)
    (fun _ _ => funext fun a => by match a with | ⟨0, _⟩ => rfl | ⟨1, _⟩ => rfl)

theorem v3_eq (x0 : (⟨S10000x500, .f32⟩ : BufTy).Contents (Elt Ideal)) (x3 : (⟨S500x400, .f32⟩ : BufTy).Contents (Elt Ideal)) :
    val_main_v3 (F := Ideal) x0 x3 = Spec.relu (a := 10000) (b := 400) (val_main_v2 (F := Ideal) x0 x3) := by
  funext i
  rw [val_main_v3_apply, val_main_call1_v0_apply, val_main_call1_cst_apply, Ideal.maximumf_def, Ideal.ofBits_def, Ideal.ofBits_zero_f32]
  rfl

theorem v4_eq (x0 : (⟨S10000x500, .f32⟩ : BufTy).Contents (Elt Ideal)) (x1 : (⟨S10000x10000, .f32⟩ : BufTy).Contents (Elt Ideal)) (x3 : (⟨S500x400, .f32⟩ : BufTy).Contents (Elt Ideal)) :
    val_main_v4 (F := Ideal) x0 x1 x3 = Spec.mm (a := 10000) (k := 10000) (b := 400) x1 (val_main_v3 (F := Ideal) x0 x3) :=
  mm_of_apply (a := 10000) (k := 10000) (b := 400) _ _ _ lidx_main_v4 ridx_main_v4 (val_main_v4_apply x0 x1 x3)
    (fun _ _ => funext fun a => by match a with | ⟨0, _⟩ => rfl | ⟨1, _⟩ => rfl)
    (fun _ _ => funext fun a => by match a with | ⟨0, _⟩ => rfl | ⟨1, _⟩ => rfl)

theorem v5_eq (x0 : (⟨S10000x500, .f32⟩ : BufTy).Contents (Elt Ideal)) (x4 : (⟨S500x400, .f32⟩ : BufTy).Contents (Elt Ideal)) :
    val_main_v5 (F := Ideal) x0 x4 = Spec.mm (a := 10000) (k := 500) (b := 400) x0 x4 :=
  mm_of_apply (a := 10000) (k := 500) (b := 400) _ _ _ lidx_main_v5 ridx_main_v5 (val_main_v5_apply x0 x4)
    (fun _ _ => funext fun a => by match a with | ⟨0, _⟩ => rfl | ⟨1, _⟩ => rfl)
    (fun _ _ => funext fun a => by match a with | ⟨0, _⟩ => rfl | ⟨1, _⟩ => rfl)

theorem v6_eq (x0 : (⟨S10000x500, .f32⟩ : BufTy).Contents (Elt Ideal)) (x4 : (⟨S500x400, .f32⟩ : BufTy).Contents (Elt Ideal)) :
    val_main_v6 (F := Ideal) x0 x4 = Spec.relu (a := 10000) (b := 400) (val_main_v5 (F := Ideal) x0 x4) := by
  funext i
  rw [val_main_v6_apply, val_main_call2_v0_apply, val_main_call2_cst_apply, Ideal.maximumf_def, Ideal.ofBits_def, Ideal.ofBits_zero_f32]
  rfl

theorem v7_eq (x0 : (⟨S10000x500, .f32⟩ : BufTy).Contents (Elt Ideal)) (x1 : (⟨S10000x10000, .f32⟩ : BufTy).Contents (Elt Ideal)) (x4 : (⟨S500x400, .f32⟩ : BufTy).Contents (Elt Ideal)) :
    val_main_v7 (F := Ideal) x0 x1 x4 = Spec.mm (a := 10000) (k := 10000) (b := 400) x1 (val_main_v6 (F := Ideal) x0 x4) :=
  mm_of_apply (a := 10000) (k := 10000) (b := 400) _ _ _ lidx_main_v7 ridx_main_v7 (val_main_v7_apply x0 x1 x4)
    (fun _ _ => funext fun a => by match a with | ⟨0, _⟩ => rfl | ⟨1, _⟩ => rfl)
    (fun _ _ => funext fun a => by match a with | ⟨0, _⟩ => rfl | ⟨1, _⟩ => rfl)

theorem v8_eq (x0 : (⟨S10000x500, .f32⟩ : BufTy).Contents (Elt Ideal)) (x1 : (⟨S10000x10000, .f32⟩ : BufTy).Contents (Elt Ideal)) (x4 : (⟨S500x400, .f32⟩ : BufTy).Contents (Elt Ideal)) :
    val_main_v8 (F := Ideal) x0 x1 x4 = Spec.mm (a := 10000) (k := 10000) (b := 400) x1 (val_main_v7 (F := Ideal) x0 x1 x4) :=
  mm_of_apply (a := 10000) (k := 10000) (b := 400) _ _ _ lidx_main_v8 ridx_main_v8 (val_main_v8_apply x0 x1 x4)
    (fun _ _ => funext fun a => by match a with | ⟨0, _⟩ => rfl | ⟨1, _⟩ => rfl)
    (fun _ _ => funext fun a => by match a with | ⟨0, _⟩ => rfl | ⟨1, _⟩ => rfl)

theorem v9_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) :
    val_main_v9 (F := Ideal) x0 x1 x2 x3 x4
      = Spec.cat3 (val_main_v1 (F := Ideal) x0 x2) (val_main_v4 (F := Ideal) x0 x1 x3) (val_main_v8 (F := Ideal) x0 x1 x4) := by
  unfold val_main_v9 Spec.cat3
  rfl

theorem v10_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 : (⟨S1200x400, .f32⟩ : BufTy).Contents (Elt Ideal)) :
    val_main_v10 (F := Ideal) x0 x1 x2 x3 x4 x5 = Spec.mm (a := 10000) (k := 1200) (b := 400) (val_main_v9 (F := Ideal) x0 x1 x2 x3 x4) x5 :=
  mm_of_apply (a := 10000) (k := 1200) (b := 400) _ _ _ lidx_main_v10 ridx_main_v10 (val_main_v10_apply x0 x1 x2 x3 x4 x5)
    (fun _ _ => funext fun a => by match a with | ⟨0, _⟩ => rfl | ⟨1, _⟩ => rfl)
    (fun _ _ => funext fun a => by match a with | ⟨0, _⟩ => rfl | ⟨1, _⟩ => rfl)

theorem v11_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x6 : (⟨S1200x400, .f32⟩ : BufTy).Contents (Elt Ideal)) :
    val_main_v11 (F := Ideal) x0 x1 x2 x3 x4 x6 = Spec.mm (a := 10000) (k := 1200) (b := 400) (val_main_v9 (F := Ideal) x0 x1 x2 x3 x4) x6 :=
  mm_of_apply (a := 10000) (k := 1200) (b := 400) _ _ _ lidx_main_v11 ridx_main_v11 (val_main_v11_apply x0 x1 x2 x3 x4 x6)
    (fun _ _ => funext fun a => by match a with | ⟨0, _⟩ => rfl | ⟨1, _⟩ => rfl)
    (fun _ _ => funext fun a => by match a with | ⟨0, _⟩ => rfl | ⟨1, _⟩ => rfl)

theorem v12_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x6 : (⟨S1200x400, .f32⟩ : BufTy).Contents (Elt Ideal)) :
    val_main_v12 (F := Ideal) x0 x1 x2 x3 x4 x6 = Spec.mm (a := 10000) (k := 10000) (b := 400) x1 (val_main_v11 (F := Ideal) x0 x1 x2 x3 x4 x6) :=
  mm_of_apply (a := 10000) (k := 10000) (b := 400) _ _ _ lidx_main_v12 ridx_main_v12 (val_main_v12_apply x0 x1 x2 x3 x4 x6)
    (fun _ _ => funext fun a => by match a with | ⟨0, _⟩ => rfl | ⟨1, _⟩ => rfl)
    (fun _ _ => funext fun a => by match a with | ⟨0, _⟩ => rfl | ⟨1, _⟩ => rfl)

theorem v13_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x7 : (⟨S1200x400, .f32⟩ : BufTy).Contents (Elt Ideal)) :
    val_main_v13 (F := Ideal) x0 x1 x2 x3 x4 x7 = Spec.mm (a := 10000) (k := 1200) (b := 400) (val_main_v9 (F := Ideal) x0 x1 x2 x3 x4) x7 :=
  mm_of_apply (a := 10000) (k := 1200) (b := 400) _ _ _ lidx_main_v13 ridx_main_v13 (val_main_v13_apply x0 x1 x2 x3 x4 x7)
    (fun _ _ => funext fun a => by match a with | ⟨0, _⟩ => rfl | ⟨1, _⟩ => rfl)
    (fun _ _ => funext fun a => by match a with | ⟨0, _⟩ => rfl | ⟨1, _⟩ => rfl)

theorem v14_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x7 : (⟨S1200x400, .f32⟩ : BufTy).Contents (Elt Ideal)) :
    val_main_v14 (F := Ideal) x0 x1 x2 x3 x4 x7 = Spec.mm (a := 10000) (k := 10000) (b := 400) x1 (val_main_v13 (F := Ideal) x0 x1 x2 x3 x4 x7) :=
  mm_of_apply (a := 10000) (k := 10000) (b := 400) _ _ _ lidx_main_v14 ridx_main_v14 (val_main_v14_apply x0 x1 x2 x3 x4 x7)
    (fun _ _ => funext fun a => by match a with | ⟨0, _⟩ => rfl | ⟨1, _⟩ => rfl)
    (fun _ _ => funext fun a => by match a with | ⟨0, _⟩ => rfl | ⟨1, _⟩ => rfl)

theorem v15_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x7 : (⟨S1200x400, .f32⟩ : BufTy).Contents (Elt Ideal)) :
    val_main_v15 (F := Ideal) x0 x1 x2 x3 x4 x7 = Spec.mm (a := 10000) (k := 10000) (b := 400) x1 (val_main_v14 (F := Ideal) x0 x1 x2 x3 x4 x7) :=
  mm_of_apply (a := 10000) (k := 10000) (b := 400) _ _ _ lidx_main_v15 ridx_main_v15 (val_main_v15_apply x0 x1 x2 x3 x4 x7)
    (fun _ _ => funext fun a => by match a with | ⟨0, _⟩ => rfl | ⟨1, _⟩ => rfl)
    (fun _ _ => funext fun a => by match a with | ⟨0, _⟩ => rfl | ⟨1, _⟩ => rfl)

theorem v16_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 x6 x7 : (⟨S1200x400, .f32⟩ : BufTy).Contents (Elt Ideal)) :
    val_main_v16 (F := Ideal) x0 x1 x2 x3 x4 x5 x6 x7
      = Spec.cat3 (val_main_v10 (F := Ideal) x0 x1 x2 x3 x4 x5) (val_main_v12 (F := Ideal) x0 x1 x2 x3 x4 x6) (val_main_v15 (F := Ideal) x0 x1 x2 x3 x4 x7) := by
  unfold val_main_v16 Spec.cat3
  rfl

theorem v17_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 x6 x7 : (⟨S1200x400, .f32⟩ : BufTy).Contents (Elt Ideal)) (x8 : (⟨S1200x1200, .f32⟩ : BufTy).Contents (Elt Ideal)) :
    val_main_v17 (F := Ideal) x0 x1 x2 x3 x4 x5 x6 x7 x8 = Spec.mm (a := 10000) (k := 1200) (b := 1200) (val_main_v16 (F := Ideal) x0 x1 x2 x3 x4 x5 x6 x7) x8 :=
  mm_of_apply (a := 10000) (k := 1200) (b := 1200) _ _ _ lidx_main_v17 ridx_main_v17 (val_main_v17_apply x0 x1 x2 x3 x4 x5 x6 x7 x8)
    (fun _ _ => funext fun a => by match a with | ⟨0, _⟩ => rfl | ⟨1, _⟩ => rfl)
    (fun _ _ => funext fun a => by match a with | ⟨0, _⟩ => rfl | ⟨1, _⟩ => rfl)

theorem v20_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 x6 x7 : (⟨S1200x400, .f32⟩ : BufTy).Contents (Elt Ideal)) (x8 : (⟨S1200x1200, .f32⟩ : BufTy).Contents (Elt Ideal)) (x9 : (⟨S1200, .f32⟩ : BufTy).Contents (Elt Ideal)) :
    val_main_v20 (F := Ideal) x0 x1 x2 x3 x4 x5 x6 x7 x8 x9
      = Spec.addRow (a := 10000) (b := 1200) (val_main_v17 (F := Ideal) x0 x1 x2 x3 x4 x5 x6 x7 x8) x9 := by
  funext i
  rw [val_main_v20_apply, val_main_v19_apply, val_main_v18_apply, Ideal.addf_def]
  unfold Spec.addRow
  congr 2
  funext a
  match a with | ⟨0, _⟩ => rfl

theorem v21_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 x6 x7 : (⟨S1200x400, .f32⟩ : BufTy).Contents (Elt Ideal)) (x8 : (⟨S1200x1200, .f32⟩ : BufTy).Contents (Elt Ideal)) (x9 : (⟨S1200, .f32⟩ : BufTy).Contents (Elt Ideal)) :
    val_main_v21 (F := Ideal) x0 x1 x2 x3 x4 x5 x6 x7 x8 x9
      = Spec.relu (a := 10000) (b := 1200) (val_main_v20 (F := Ideal) x0 x1 x2 x3 x4 x5 x6 x7 x8 x9) := by
  funext i
  rw [val_main_v21_apply, val_main_call3_v0_apply, val_main_call3_cst_apply, Ideal.maximumf_def, Ideal.ofBits_def, Ideal.ofBits_zero_f32]
  rfl

theorem val_eq (x0 : (⟨S10000x500, .f32⟩ : BufTy).Contents (Elt Ideal)) (x1 : (⟨S10000x10000, .f32⟩ : BufTy).Contents (Elt Ideal)) (x2 x3 x4 : (⟨S500x400, .f32⟩ : BufTy).Contents (Elt Ideal)) (x5 x6 x7 : (⟨S1200x400, .f32⟩ : BufTy).Contents (Elt Ideal)) (x8 : (⟨S1200x1200, .f32⟩ : BufTy).Contents (Elt Ideal)) (x9 : (⟨S1200, .f32⟩ : BufTy).Contents (Elt Ideal)) :
    val_main_v21 (F := Ideal) x0 x1 x2 x3 x4 x5 x6 x7 x8 x9 = Spec.out x0 x1 x2 x3 x4 x5 x6 x7 x8 x9 := by
  unfold Spec.out Spec.layer2 Spec.layer1
  rw [v21_eq, v20_eq, v17_eq, v16_eq, v10_eq, v12_eq, v11_eq, v15_eq, v14_eq, v13_eq, v9_eq, v1_eq, v0_eq, v4_eq, v3_eq,
    v2_eq, v8_eq, v7_eq, v6_eq, v5_eq]

theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v21_eq (F := Ideal) m c).trans (val_eq ..)

end Cert.RefVal

end
-- ==== Proof.lean ====
import proofs.«110190_j59090160058610_1_alg».proof.Defs
import proofs.«110190_j59090160058610_1_alg».proof.Proof.Gen.Kernel
import proofs.«110190_j59090160058610_1_alg».proof.Proof.Gen.KernelIdeal
import proofs.«110190_j59090160058610_1_alg».proof.Proof.Gen.ReferenceIdeal
import proofs.«110190_j59090160058610_1_alg».proof.Proof.Gen.Pre_finite_inputs
import proofs.«110190_j59090160058610_1_alg».proof.Proof.Gen.ReferenceIdeal.Run
import proofs.«110190_j59090160058610_1_alg».proof.Proof.K.Run
import proofs.«110190_j59090160058610_1_alg».proof.Proof.KI.Run
import proofs.«110190_j59090160058610_1_alg».proof.Proof.KI.Chain
import proofs.«110190_j59090160058610_1_alg».proof.Proof.RefVal

noncomputable section

namespace Cert.Proof

open Idealize.ShloMosaic Idealize.SL.Sem
open Cert.KernelIdeal (nD τ main_v16 main_arg0 main_arg1 main_arg2 main_arg3 main_arg4 main_arg5 main_arg6 main_arg7 main_arg8 main_arg9)
open Cert.KernelIdeal.Fr (mem_uc W16_of_not_produced run_all)

theorem frame_Kernel : Cert.frame_Kernel := fun m ρ _ => Cert.Kernel.Fr.frame m ρ

theorem frame_KernelIdeal : Cert.frame_KernelIdeal := fun m ρ _ => Cert.KernelIdeal.Fr.frame m ρ

theorem frame_ReferenceIdeal : Cert.frame_ReferenceIdeal :=
  fun m ρ _ => (θ_run Cert.ReferenceIdeal.defs _ _).mono (fun _ h c => (h c).2) (Cert.ReferenceIdeal.Value.run (F := Ideal) m ρ)

/-- The kernel's last boundary holds Cert.Spec.out of the ten arguments, the reference's composed term is the same
    function, and the two memories agree on the arguments. -/
theorem algebraic : Cert.algebraic_KernelIdeal_ReferenceIdeal :=
  fun m ρ m' ρ' _ hagree =>
    ⟨fun c => Cert.Spec.out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9)),
      (θ_run Cert.KernelIdeal.defs _ _).mono (fun r h c =>
        ⟨(h c _ (mem_uc main_v16 (by decide))).trans (Cert.KernelIdeal.Val.result m c),
          (h c _ (mem_uc main_arg0 (by decide))).trans (W16_of_not_produced m c main_arg0 (by decide)),
          (h c _ (mem_uc main_arg1 (by decide))).trans (W16_of_not_produced m c main_arg1 (by decide)),
          (h c _ (mem_uc main_arg2 (by decide))).trans (W16_of_not_produced m c main_arg2 (by decide)),
          (h c _ (mem_uc main_arg3 (by decide))).trans (W16_of_not_produced m c main_arg3 (by decide)),
          (h c _ (mem_uc main_arg4 (by decide))).trans (W16_of_not_produced m c main_arg4 (by decide)),
          (h c _ (mem_uc main_arg5 (by decide))).trans (W16_of_not_produced m c main_arg5 (by decide)),
          (h c _ (mem_uc main_arg6 (by decide))).trans (W16_of_not_produced m c main_arg6 (by decide)),
          (h c _ (mem_uc main_arg7 (by decide))).trans (W16_of_not_produced m c main_arg7 (by decide)),
          (h c _ (mem_uc main_arg8 (by decide))).trans (W16_of_not_produced m c main_arg8 (by decide)),
          (h c _ (mem_uc main_arg9 (by decide))).trans (W16_of_not_produced m c main_arg9 (by decide))⟩)
        (run_all (F := Ideal) m ρ),
      (θ_run Cert.ReferenceIdeal.defs _ _).mono (fun _ h c =>
        ⟨((h c).1.trans (Cert.RefVal.res_eq m' c)).trans (by
            rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]),
          (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
